-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S128x40 .f32) (main_arg12 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S128x40 .f32 := Host.absf main_arg11
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg12
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg7 : FVec F S64x128 .f32) (main_arg8 : FVec F S64x128 .f32) (main_arg9 : FVec F S128 .f32) (main_arg10 : FVec F S128x40 .f32) (main_arg11 : FVec F S128x40 .f32) (main_arg12 : FVec F S40 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg10
  let main_cst_18 : FVec F S_ .f32 := constant S_ .f32 0x7F800000#32
  let main_v50 : FVec F S128x40 .f32 := broadcastInDim S128x40 ![] bcast_S_S128x40 main_cst_18
  fn_part3 (F := F) main_arg11 main_arg12 main_v48 main_v49 main_v50

def fn_part1 {F : FTy → Type} [FloatOps F] (main_arg4 : FVec F S128x64 .f32) (main_arg5 : FVec F S128x64 .f32) (main_arg6 : FVec F S64 .f32) (main_arg7 : FVec F S64x128 .f32) (main_arg8 : FVec F S64x128 .f32) (main_arg9 : FVec F S128 .f32) (main_arg10 : FVec F S128x40 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S128x64 .f32) (main_arg6 : FVec F S64 .f32) (main_arg7 : FVec F S64x128 .f32) (main_arg8 : FVec F S64x128 .f32) (main_arg9 : FVec F S128 .f32) (main_arg10 : FVec F S128x40 .f32) (main_arg11 : FVec F S128x40 .f32) (main_arg12 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x40 : Shape := ⟨2, ![128, 40]⟩
abbrev S40 : Shape := ⟨1, ![40]⟩
abbrev S0 : Shape := ⟨1, ![0]⟩
abbrev S_ : Shape := ⟨0, ![]⟩
abbrev S1 : Shape := ⟨1, ![1]⟩
abbrev S1x128 : Shape := ⟨2, ![1, 128]⟩
abbrev S2 : Shape := ⟨1, ![2]⟩
abbrev S1x64 : Shape := ⟨2, ![1, 64]⟩
abbrev S1x40 : Shape := ⟨2, ![1, 40]⟩
abbrev S400x128 : Shape := ⟨2, ![400, 128]⟩
abbrev S10000x64 : Shape := ⟨2, ![10000, 64]⟩
abbrev S10000x1 : Shape := ⟨2, ![10000, 1]⟩
abbrev S200x10000 : Shape := ⟨2, ![200, 10000]⟩
abbrev S400x10000 : Shape := ⟨2, ![400, 10000]⟩
abbrev S400x64 : Shape := ⟨2, ![400, 64]⟩
abbrev S400x1 : Shape := ⟨2, ![400, 1]⟩
abbrev S200x128 : Shape := ⟨2, ![200, 128]⟩
abbrev S10000x40 : Shape := ⟨2, ![10000, 40]⟩
abbrev S1000x64 : Shape := ⟨2, ![1000, 64]⟩
abbrev S1000x1 : Shape := ⟨2, ![1000, 1]⟩
abbrev S1000x128 : Shape := ⟨2, ![1000, 128]⟩
abbrev S1000x40 : Shape := ⟨2, ![1000, 40]⟩
abbrev S200x64 : Shape := ⟨2, ![200, 64]⟩
abbrev S200x40 : Shape := ⟨2, ![200, 40]⟩

abbrev nBuf : Space → Nat
  | .hbm => 44
  | .vmem => 69
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S128, .f32⟩
  | .hbm, ⟨10, _⟩ => ⟨S128x40, .f32⟩
  | .hbm, ⟨11, _⟩ => ⟨S128x40, .f32⟩
  | .hbm, ⟨12, _⟩ => ⟨S40, .f32⟩
  | .hbm, ⟨13, _⟩ => ⟨S0, .i32⟩
  | .hbm, ⟨14, _⟩ => ⟨S_, .f32⟩
  | .hbm, ⟨15, _⟩ => ⟨S128x128, .f32⟩
  | .hbm, ⟨16, _⟩ => ⟨S_, .i32⟩
  | .hbm, ⟨17, _⟩ => ⟨S1, .i32⟩
  | .hbm, ⟨18, _⟩ => ⟨S128x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S_, .f32⟩
  | .hbm, ⟨27, _⟩ => ⟨S1x128, .f32⟩
  | .hbm, ⟨28, _⟩ => ⟨S_, .f32⟩
  | .hbm, ⟨29, _⟩ => ⟨S128x40, .f32⟩
  | .hbm, ⟨30, _⟩ => ⟨S128x40, .f32⟩
  | .hbm, ⟨31, _⟩ => ⟨S1x128, .f32⟩
  | .hbm, ⟨32, _⟩ => ⟨S1x64, .f32⟩
  | .hbm, ⟨33, _⟩ => ⟨S1x128, .f32⟩
  | .hbm, ⟨34, _⟩ => ⟨S1x40, .f32⟩
  | .hbm, ⟨35, _⟩ => ⟨S10000x128, .f32⟩
  | .hbm, ⟨36, _⟩ => ⟨S10000x128, .bf16⟩
  | .hbm, ⟨37, _⟩ => ⟨S10000x10000, .bf16⟩
  | .hbm, ⟨38, _⟩ => ⟨S10000x64, .f32⟩
  | .hbm, ⟨39, _⟩ => ⟨S10000x64, .bf16⟩
  | .hbm, ⟨40, _⟩ => ⟨S10000x1, .f32⟩
  | .hbm, ⟨41, _⟩ => ⟨S10000x128, .f32⟩
  | .hbm, ⟨42, _⟩ => ⟨S10000x40, .bf16⟩
  | .hbm, ⟨43, _⟩ => ⟨S10000x40, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S400x128, .bf16⟩
  | .local _ .vmem, ⟨9, _⟩ => ⟨S400x128, .bf16⟩
  | .local _ .vmem, ⟨10, _⟩ => ⟨S200x10000, .f32⟩
  | .local _ .vmem, ⟨11, _⟩ => ⟨S200x10000, .f32⟩
  | .local _ .vmem, ⟨12, _⟩ => ⟨S200x10000, .f32⟩
  | .local _ .vmem, ⟨13, _⟩ => ⟨S200x10000, .f32⟩
  | .local _ .vmem, ⟨14, _⟩ => ⟨S10000x128, .bf16⟩
  | .local _ .vmem, ⟨15, _⟩ => ⟨S400x128, .f32⟩
  | .local _ .vmem, ⟨16, _⟩ => ⟨S400x128, .f32⟩
  | .local _ .vmem, ⟨17, _⟩ => ⟨S128x64, .f32⟩
  | .local _ .vmem, ⟨18, _⟩ => ⟨S1x64, .f32⟩
  | .local _ .vmem, ⟨19, _⟩ => ⟨S400x10000, .bf16⟩
  | .local _ .vmem, ⟨20, _⟩ => ⟨S400x10000, .bf16⟩
  | .local _ .vmem, ⟨21, _⟩ => ⟨S400x64, .f32⟩
  | .local _ .vmem, ⟨22, _⟩ => ⟨S400x64, .f32⟩
  | .local _ .vmem, ⟨23, _⟩ => ⟨S400x64, .bf16⟩
  | .local _ .vmem, ⟨24, _⟩ => ⟨S400x64, .bf16⟩
  | .local _ .vmem, ⟨25, _⟩ => ⟨S400x1, .f32⟩
  | .local _ .vmem, ⟨26, _⟩ => ⟨S400x1, .f32⟩
  | .local _ .vmem, ⟨27, _⟩ => ⟨S200x10000, .bf16⟩
  | .local _ .vmem, ⟨28, _⟩ => ⟨S200x10000, .bf16⟩
  | .local _ .vmem, ⟨29, _⟩ => ⟨S200x10000, .bf16⟩
  | .local _ .vmem, ⟨30, _⟩ => ⟨S200x10000, .bf16⟩
  | .local _ .vmem, ⟨31, _⟩ => ⟨S200x10000, .bf16⟩
  | .local _ .vmem, ⟨32, _⟩ => ⟨S200x10000, .bf16⟩
  | .local _ .vmem, ⟨33, _⟩ => ⟨S200x10000, .bf16⟩
  | .local _ .vmem, ⟨34, _⟩ => ⟨S200x10000, .bf16⟩
  | .local _ .vmem, ⟨35, _⟩ => ⟨S200x10000, .bf16⟩
  | .local _ .vmem, ⟨36, _⟩ => ⟨S200x10000, .bf16⟩
  | .local _ .vmem, ⟨37, _⟩ => ⟨S10000x64, .bf16⟩
  | .local _ .vmem, ⟨38, _⟩ => ⟨S1000x64, .f32⟩
  | .local _ .vmem, ⟨39, _⟩ => ⟨S1000x64, .f32⟩
  | .local _ .vmem, ⟨40, _⟩ => ⟨S1000x1, .f32⟩
  | .local _ .vmem, ⟨41, _⟩ => ⟨S1000x1, .f32⟩
  | .local _ .vmem, ⟨42, _⟩ => ⟨S64x128, .f32⟩
  | .local _ .vmem, ⟨43, _⟩ => ⟨S64x128, .f32⟩
  | .local _ .vmem, ⟨44, _⟩ => ⟨S1x128, .f32⟩
  | .local _ .vmem, ⟨45, _⟩ => ⟨S128x40, .f32⟩
  | .local _ .vmem, ⟨46, _⟩ => ⟨S1000x128, .f32⟩
  | .local _ .vmem, ⟨47, _⟩ => ⟨S1000x128, .f32⟩
  | .local _ .vmem, ⟨48, _⟩ => ⟨S1000x40, .bf16⟩
  | .local _ .vmem, ⟨49, _⟩ => ⟨S1000x40, .bf16⟩
  | .local _ .vmem, ⟨50, _⟩ => ⟨S200x10000, .bf16⟩
  | .local _ .vmem, ⟨51, _⟩ => ⟨S200x10000, .bf16⟩
  | .local _ .vmem, ⟨52, _⟩ => ⟨S200x10000, .bf16⟩
  | .local _ .vmem, ⟨53, _⟩ => ⟨S200x10000, .bf16⟩
  | .local _ .vmem, ⟨54, _⟩ => ⟨S200x10000, .bf16⟩
  | .local _ .vmem, ⟨55, _⟩ => ⟨S200x10000, .bf16⟩
  | .local _ .vmem, ⟨56, _⟩ => ⟨S200x10000, .bf16⟩
  | .local _ .vmem, ⟨57, _⟩ => ⟨S200x10000, .bf16⟩
  | .local _ .vmem, ⟨58, _⟩ => ⟨S200x10000, .bf16⟩
  | .local _ .vmem, ⟨59, _⟩ => ⟨S200x10000, .bf16⟩
  | .local _ .vmem, ⟨60, _⟩ => ⟨S10000x40, .bf16⟩
  | .local _ .vmem, ⟨61, _⟩ => ⟨S1000x128, .f32⟩
  | .local _ .vmem, ⟨62, _⟩ => ⟨S1000x128, .f32⟩
  | .local _ .vmem, ⟨63, _⟩ => ⟨S1000x1, .f32⟩
  | .local _ .vmem, ⟨64, _⟩ => ⟨S1000x1, .f32⟩
  | .local _ .vmem, ⟨65, _⟩ => ⟨S128x40, .f32⟩
  | .local _ .vmem, ⟨66, _⟩ => ⟨S1x40, .f32⟩
  | .local _ .vmem, ⟨67, _⟩ => ⟨S1000x40, .f32⟩
  | .local _ .vmem, ⟨68, _⟩ => ⟨S1000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_v0 : Ref sig .tc := ⟨.hbm, 15, rfl⟩
abbrev main_c_0 : Ref sig .tc := ⟨.hbm, 16, rfl⟩
abbrev main_v1 : Ref sig .tc := ⟨.hbm, 17, rfl⟩
abbrev main_v2 : Ref sig .tc := ⟨.hbm, 18, rfl⟩
abbrev main_cst_1 : Ref sig .tc := ⟨.hbm, 19, rfl⟩
abbrev main_v3 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_v5 : Ref sig .tc := ⟨.hbm, 24, rfl⟩
abbrev main_v6 : Ref sig .tc := ⟨.hbm, 25, rfl⟩
abbrev main_cst_4 : Ref sig .tc := ⟨.hbm, 26, rfl⟩
abbrev main_v7 : Ref sig .tc := ⟨.hbm, 27, rfl⟩
abbrev main_cst_5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v15_0 : Ref sig .tc := ⟨.hbm, 37, rfl⟩
abbrev main_v15_1 : Ref sig .tc := ⟨.hbm, 38, rfl⟩
abbrev main_v15_2 : Ref sig .tc := ⟨.hbm, 39, rfl⟩
abbrev main_v15_3 : Ref sig .tc := ⟨.hbm, 40, rfl⟩
abbrev main_v16_0 : Ref sig .tc := ⟨.hbm, 41, rfl⟩
abbrev main_v16_1 : Ref sig .tc := ⟨.hbm, 42, rfl⟩
abbrev main_v17 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg12_1 : Ref sig .tc := ⟨.vmem, 47, rfl⟩
abbrev cc2_stg13_0 : Ref sig .tc := ⟨.vmem, 48, rfl⟩
abbrev cc2_stg13_1 : Ref sig .tc := ⟨.vmem, 49, rfl⟩
abbrev cc3_stg0_0 : Ref sig .tc := ⟨.vmem, 50, rfl⟩
abbrev cc3_stg0_1 : Ref sig .tc := ⟨.vmem, 51, rfl⟩
abbrev cc3_stg1_0 : Ref sig .tc := ⟨.vmem, 52, rfl⟩
abbrev cc3_stg1_1 : Ref sig .tc := ⟨.vmem, 53, rfl⟩
abbrev cc3_stg2_0 : Ref sig .tc := ⟨.vmem, 54, rfl⟩
abbrev cc3_stg2_1 : Ref sig .tc := ⟨.vmem, 55, rfl⟩
abbrev cc3_stg3_0 : Ref sig .tc := ⟨.vmem, 56, rfl⟩
abbrev cc3_stg3_1 : Ref sig .tc := ⟨.vmem, 57, rfl⟩
abbrev cc3_stg4_0 : Ref sig .tc := ⟨.vmem, 58, rfl⟩
abbrev cc3_stg4_1 : Ref sig .tc := ⟨.vmem, 59, rfl⟩
abbrev cc3_stg5_0 : Ref sig .tc := ⟨.vmem, 60, rfl⟩
abbrev cc3_stg6_0 : Ref sig .tc := ⟨.vmem, 61, rfl⟩
abbrev cc3_stg6_1 : Ref sig .tc := ⟨.vmem, 62, rfl⟩
abbrev cc3_stg7_0 : Ref sig .tc := ⟨.vmem, 63, rfl⟩
abbrev cc3_stg7_1 : Ref sig .tc := ⟨.vmem, 64, rfl⟩
abbrev cc3_stg8_0 : Ref sig .tc := ⟨.vmem, 65, rfl⟩
abbrev cc3_stg9_0 : Ref sig .tc := ⟨.vmem, 66, rfl⟩
abbrev cc3_stg10_0 : Ref sig .tc := ⟨.vmem, 67, rfl⟩
abbrev cc3_stg10_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem6_1 : DmaSem sig := 39
abbrev cc2_sem7_0 : DmaSem sig := 40
abbrev cc2_sem7_1 : DmaSem sig := 41
abbrev cc2_sem8_0 : DmaSem sig := 42
abbrev cc2_sem9_0 : DmaSem sig := 43
abbrev cc2_sem10_0 : DmaSem sig := 44
abbrev cc2_sem11_0 : DmaSem sig := 45
abbrev cc2_sem12_0 : DmaSem sig := 46
abbrev cc2_sem12_1 : DmaSem sig := 47
abbrev cc2_sem13_0 : DmaSem sig := 48
abbrev cc2_sem13_1 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem2_1 : DmaSem sig := 55
abbrev cc3_sem3_0 : DmaSem sig := 56
abbrev cc3_sem3_1 : DmaSem sig := 57
abbrev cc3_sem4_0 : DmaSem sig := 58
abbrev cc3_sem4_1 : DmaSem sig := 59
abbrev cc3_sem5_0 : DmaSem sig := 60
abbrev cc3_sem6_0 : DmaSem sig := 61
abbrev cc3_sem6_1 : DmaSem sig := 62
abbrev cc3_sem7_0 : DmaSem sig := 63
abbrev cc3_sem7_1 : DmaSem sig := 64
abbrev cc3_sem8_0 : DmaSem sig := 65
abbrev cc3_sem9_0 : DmaSem sig := 66
abbrev cc3_sem10_0 : DmaSem sig := 67
abbrev cc3_sem10_1 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x10000 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S200x10000 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S200x10000 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S200x10000 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S10000x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x40 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1000x40 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc3_transform_1 (i : grid3.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S200x10000 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S200x10000 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S200x10000 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S200x10000 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S10000x40 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x40 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x40 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1000x40 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  hz_S0 : S0.numel = 0
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  bcast_S_S128x40 : S_.BroadcastsInDim S128x40 (![] : Fin 0 → Fin S128x40.rank)
  shapeCasts_S128_S1x128 : S128.ShapeCasts S1x128
  shapeCasts_S64_S1x64 : S64.ShapeCasts S1x64
  shapeCasts_S40_S1x40 : S40.ShapeCasts S1x40
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S128x128_S128x128 : S128x128.ShapeCasts S128x128
  bitsLt_bf16_f32 : FTy.bits .bf16 < FTy.bits .f32
  packedbf16_S400x128_S400x128_0_0 : (Rect.unit (s := S400x128) ![0, 0] S400x128.size inb_S400x128_S400x128_0_0).PackedRows (EltTy.packing .bf16)
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S200x128_S200x128_S400x128_d0 : Shape.Concatenates [S200x128, S200x128] S400x128 0
  concatenates_S200x10000_S200x10000_S400x10000_d0 : Shape.Concatenates [S200x10000, S200x10000] S400x10000 0
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  slices_S400x128_o0_64_S400x1 : S400x128.Slices ![0, 64] S400x1
  inb_S400x1_S400x1_0_0 : ∀ a, (![0, 0] : Fin 2 → Nat) a + S400x1.size a ≤ S400x1.size a
  h_S400x1 : 0 < S400x1.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  slices_S400x128_o0_0_S400x64 : S400x128.Slices ![0, 0] S400x64
  broadcasts_S400x1_S400x64 : S400x1.Broadcasts S400x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S200x10000_S200x10000 : S200x10000.ShapeCasts S200x10000
  concatenates_S200x64_S200x64_S200x64_S200x64_S200x64_S1000x64_d0 : Shape.Concatenates [S200x64, S200x64, S200x64, S200x64, S200x64] S1000x64 0
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x128_S64x128_0_0 : ∀ a, (![0, 0] : Fin 2 → Nat) a + S64x128.size a ≤ S64x128.size a
  h_S64x128 : 0 < S64x128.numel
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1000x40_S1000x40_0_0 : ∀ a, (![0, 0] : Fin 2 → Nat) a + S1000x40.size a ≤ S1000x40.size a
  h_S1000x40 : 0 < S1000x40.numel
  packedbf16_S1000x40_S1000x40_0_0 : (Rect.unit (s := S1000x40) ![0, 0] S1000x40.size inb_S1000x40_S1000x40_0_0).PackedRows (EltTy.packing .bf16)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  concatenates_S200x40_S200x40_S200x40_S200x40_S200x40_S1000x40_d0 : Shape.Concatenates [S200x40, S200x40, S200x40, S200x40, S200x40] S1000x40 0
  shapeCasts_S1000x128_S1000x128 : S1000x128.ShapeCasts S1000x128
  broadcasts_S1000x1_S1000x40 : S1000x1.Broadcasts S1000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  scatter_S128x128_S1_S128x64_01_n_1_0_wf : ScatterDims.WF S128x128 S1 S128x64 [0, 1] [] [1] 0
  scatter_S1x128_S2_S__n_01_01_0_wf : ScatterDims.WF S1x128 S2 S_ [] [0, 1] [0, 1] 0
  scatter_S128x40_S0_S128x40_01_n_n_0_wf : ScatterDims.WF S128x40 S0 S128x40 [0, 1] [] [] 0
  dot_S400x128_S128x128_S400x128_1_0_0_1_n_n_wf : DotDims.WF S400x128 S128x128 S400x128 [1] [0] [0] [1] [] []
  dot_S200x10000_S10000x128_S200x128_1_0_0_1_n_n_wf : DotDims.WF S200x10000 S10000x128 S200x128 [1] [0] [0] [1] [] []
  dot_S400x128_S128x64_S400x64_1_0_0_1_n_n_wf : DotDims.WF S400x128 S128x64 S400x64 [1] [0] [0] [1] [] []
  dot_S200x10000_S10000x64_S200x64_1_0_0_1_n_n_wf : DotDims.WF S200x10000 S10000x64 S200x64 [1] [0] [0] [1] [] []
  dot_S1000x64_S64x128_S1000x128_1_0_0_1_n_n_wf : DotDims.WF S1000x64 S64x128 S1000x128 [1] [0] [0] [1] [] []
  dot_S1000x128_S128x40_S1000x40_1_0_0_1_n_n_wf : DotDims.WF S1000x128 S128x40 S1000x40 [1] [0] [0] [1] [] []
  dot_S200x10000_S10000x40_S200x40_1_0_0_1_n_n_wf : DotDims.WF S200x10000 S10000x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x10000.size a ≤ S10000x10000.size a
  hwx1_6 : ∀ i : grid1.Coords, EltTy.bits .bf16 = 32 ∨ (Rect.block (s := S10000x10000) S400x10000.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x64.size a ≤ S10000x64.size a
  hwx1_7 : ∀ i : grid1.Coords, EltTy.bits .f32 = 32 ∨ (Rect.block (s := S10000x64) S400x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x64.size a ≤ S10000x64.size a
  hwx1_8 : ∀ i : grid1.Coords, EltTy.bits .bf16 = 32 ∨ (Rect.block (s := S10000x64) S400x64.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x1.size a ≤ S10000x1.size a
  hwx1_9 : ∀ i : grid1.Coords, EltTy.bits .f32 = 32 ∨ (Rect.block (s := S10000x1) S400x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .bf16 = 32 ∨ (Rect.block (s := S10000x10000) S200x10000.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x10000.size a ≤ S10000x10000.size a
  hwx2_2 : ∀ i : grid2.Coords, EltTy.bits .bf16 = 32 ∨ (Rect.block (s := S10000x10000) S200x10000.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x10000.size a ≤ S10000x10000.size a
  hwx2_3 : ∀ i : grid2.Coords, EltTy.bits .bf16 = 32 ∨ (Rect.block (s := S10000x10000) S200x10000.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x10000.size a ≤ S10000x10000.size a
  hwx2_4 : ∀ i : grid2.Coords, EltTy.bits .bf16 = 32 ∨ (Rect.block (s := S10000x10000) S200x10000.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S10000x64.size a
  hwx2_5 : ∀ i : grid2.Coords, EltTy.bits .bf16 = 32 ∨ (Rect.block (s := S10000x64) S10000x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x64.size a ≤ S10000x64.size a
  hwx2_6 : ∀ i : grid2.Coords, EltTy.bits .f32 = 32 ∨ (Rect.block (s := S10000x64) S1000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x1.size a ≤ S10000x1.size a
  hwx2_7 : ∀ i : grid2.Coords, EltTy.bits .f32 = 32 ∨ (Rect.block (s := S10000x1) S1000x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x128.size a ≤ S64x128.size a
  hwx2_8 : ∀ i : grid2.Coords, EltTy.bits .f32 = 32 ∨ (Rect.block (s := S64x128) S64x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x128.size a ≤ S64x128.size a
  hwx2_9 : ∀ i : grid2.Coords, EltTy.bits .f32 = 32 ∨ (Rect.block (s := S64x128) S64x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x40.size a ≤ S128x40.size a
  hwx2_11 : ∀ i : grid2.Coords, EltTy.bits .f32 = 32 ∨ (Rect.block (s := S128x40) S128x40.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1000x128.size a ≤ S10000x128.size a
  hwx2_12 : ∀ i : grid2.Coords, EltTy.bits .f32 = 32 ∨ (Rect.block (s := S10000x128) S1000x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1000x40.size a ≤ S10000x40.size a
  hwx2_13 : ∀ i : grid2.Coords, EltTy.bits .bf16 = 32 ∨ (Rect.block (s := S10000x40) S1000x40.size (cc2_transform_13 i) (hinb2_13 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S200x10000.size a ≤ S10000x10000.size a
  hwx3_1 : ∀ i : grid3.Coords, EltTy.bits .bf16 = 32 ∨ (Rect.block (s := S10000x10000) S200x10000.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x10000.size a ≤ S10000x10000.size a
  hwx3_2 : ∀ i : grid3.Coords, EltTy.bits .bf16 = 32 ∨ (Rect.block (s := S10000x10000) S200x10000.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x10000.size a ≤ S10000x10000.size a
  hwx3_3 : ∀ i : grid3.Coords, EltTy.bits .bf16 = 32 ∨ (Rect.block (s := S10000x10000) S200x10000.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S200x10000.size a ≤ S10000x10000.size a
  hwx3_4 : ∀ i : grid3.Coords, EltTy.bits .bf16 = 32 ∨ (Rect.block (s := S10000x10000) S200x10000.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S10000x40.size a ≤ S10000x40.size a
  hwx3_5 : ∀ i : grid3.Coords, EltTy.bits .bf16 = 32 ∨ (Rect.block (s := S10000x40) S10000x40.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S10000x128.size a
  hwx3_6 : ∀ i : grid3.Coords, EltTy.bits .f32 = 32 ∨ (Rect.block (s := S10000x128) S1000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x1.size a ≤ S10000x1.size a
  hwx3_7 : ∀ i : grid3.Coords, EltTy.bits .f32 = 32 ∨ (Rect.block (s := S10000x1) S1000x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x40.size a ≤ S128x40.size a
  hwx3_8 : ∀ i : grid3.Coords, EltTy.bits .f32 = 32 ∨ (Rect.block (s := S128x40) S128x40.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x40.size a ≤ S1x40.size a
  hwx3_9 : ∀ i : grid3.Coords, EltTy.bits .f32 = 32 ∨ (Rect.block (s := S1x40) S1x40.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1000x40.size a ≤ S10000x40.size a
  hwx3_10 : ∀ i : grid3.Coords, EltTy.bits .f32 = 32 ∨ (Rect.block (s := S10000x40) S1000x40.size (cc3_transform_10 i) (hinb3_10 i)).WholeWords (EltTy.packing .f32)

variable [Facts₀]

def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def scatter_S128x40_S0_S128x40_01_n_n_0 : ScatterDims S128x40 S0 S128x40 where
  updateWindowDims := [0, 1]
  insertedWindowDims := []
  scatterDimsToOperandDims := []
  indexVectorDim := 0
  wf := scatter_S128x40_S0_S128x40_01_n_n_0_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x40_S1000x40_1_0_0_1_n_n : DotDims S1000x128 S128x40 S1000x40 where
  lhsContracting := [1]
  rhsContracting := [0]
  lhsNonContracting := [0]
  rhsNonContracting := [1]
  lhsBatch := []
  rhsBatch := []
  wf := dot_S1000x128_S128x40_S1000x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S400x10000.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S400x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v15_2) S400x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v15_3) S400x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v15_0) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_0) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15_0) S200x10000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15_0) S200x10000.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_0) S200x10000.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15_2) S10000x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15_1) S1000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v15_3) S1000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg7) S64x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg8) S64x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v12) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v9) S128x40.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v16_0) S1000x128.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v16_1) S1000x40.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v15_0) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_0) S200x10000.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15_0) S200x10000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15_0) S200x10000.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_0) S200x10000.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v16_1) S10000x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v16_0) S1000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v15_3) S1000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S128x40.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v13) S1x40.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v17) S1000x40.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x40 : Shape := ⟨2, ![128, 40]⟩
abbrev S40 : Shape := ⟨1, ![40]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S10000x64 : Shape := ⟨2, ![10000, 64]⟩
abbrev S1x64 : Shape := ⟨2, ![1, 64]⟩
abbrev S10000x40 : Shape := ⟨2, ![10000, 40]⟩
abbrev S1x40 : Shape := ⟨2, ![1, 40]⟩

abbrev nBuf : Space → Nat
  | .hbm => 57
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S128, .f32⟩
  | .hbm, ⟨10, _⟩ => ⟨S128x40, .f32⟩
  | .hbm, ⟨11, _⟩ => ⟨S128x40, .f32⟩
  | .hbm, ⟨12, _⟩ => ⟨S40, .f32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S_, .f32⟩
  | .hbm, ⟨17, _⟩ => ⟨S_, .f32⟩
  | .hbm, ⟨18, _⟩ => ⟨S10000x1, .f32⟩
  | .hbm, ⟨19, _⟩ => ⟨S10000x1, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S1x64, .f32⟩
  | .hbm, ⟨31, _⟩ => ⟨S10000x64, .f32⟩
  | .hbm, ⟨32, _⟩ => ⟨S10000x64, .f32⟩
  | .hbm, ⟨33, _⟩ => ⟨S_, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x40, .f32⟩
  | .hbm, ⟨52, _⟩ => ⟨S10000x40, .f32⟩
  | .hbm, ⟨53, _⟩ => ⟨S10000x40, .f32⟩
  | .hbm, ⟨54, _⟩ => ⟨S1x40, .f32⟩
  | .hbm, ⟨55, _⟩ => ⟨S10000x40, .f32⟩
  | .hbm, ⟨56, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_cst : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x1_S10000x128_0_1 : S10000x1.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x128_S10000x128_1_0_0_1_n_n_wf : DotDims.WF S10000x64 S64x128 S10000x128 [1] [0] [0] [1] [] []
  dot_S10000x128_S128x40_S10000x40_1_0_0_1_n_n_wf : DotDims.WF S10000x128 S128x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.KB.Body0.lean ====
import proofs.«103105_g78589311582291_cont_9to1_m_296_15_alg».proof.Proof.Gen.Kernel.Launch
import proofs.«103105_g78589311582291_cont_9to1_m_296_15_alg».proof.Proof.Gen.Kernel.Skeleton
import proofs.«103105_g78589311582291_cont_9to1_m_296_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0Rows : Rect S400x128 := Rect.unit (s := S400x128) ![0, 0] S400x128.size inb_S400x128_S400x128_0_0
abbrev r0Mat : Rect S128x128 := Rect.unit (s := S128x128) ![0, 0] S128x128.size inb_S128x128_S128x128_0_0
abbrev r0Bias : Rect S1x128 := Rect.unit (s := S1x128) ![0, 0] S1x128.size inb_S1x128_S1x128_0_0

def out0_5 (x : Vec F S400x128 .f32) (w1 : Vec F S128x128 .f32) (b1 : Vec F S1x128 .f32) : Vec F S400x128 .f32 :=
  View.canon [⟨r0Rows, k0_pay1 (View.ld x r0Rows) (View.ld w1 r0Mat) (View.ld b1 r0Bias)⟩]

def out0_6 (x : Vec F S400x128 .f32) (w1 : Vec F S128x128 .f32) (b1 : Vec F S1x128 .f32)
    (w2 : Vec F S128x128 .f32) (b2 : Vec F S1x128 .f32) : Vec F S400x128 .bf16 :=
  View.canon [⟨r0Rows, k0_pay2 (View.ld x r0Rows) (View.ld w1 r0Mat) (View.ld b1 r0Bias) (View.ld w2 r0Mat) (View.ld b2 r0Bias)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) :
    (dat0 V c).after 5 t = out0_5 (iblk0 V c 0 t) (iblk0 V c 1 t) (iblk0 V c 2 t) := rfl
theorem after0_6 (c : Dev nD) (t : Fin cfg0.N) :
    (dat0 V c).after 6 t = out0_6 (iblk0 V c 0 t) (iblk0 V c 1 t) (iblk0 V c 2 t) (iblk0 V c 3 t) (iblk0 V c 4 t) := rfl

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) := by
  refine ⟨?_, ?_, ?_, ?_, ?_⟩ <;> exact Dat.before_in_eq_fetched _ _ rfl (fun _ => rfl) (fun _ _ _ => rfl) (fun _ => rfl) t

set_option maxHeartbeats 1000000 in
-- One store covers each output block whole, so what the block held before does not matter.
theorem sound_kernel0 (c : Dev nD) (E : Set ℕ) (i : grid0.Coords)
    (arg1 : Memref sig .tc .vmem S400x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S400x128 .f32) (harg6 : arg6.IsWhole)
    (arg7 : Memref sig .tc .vmem S400x128 .bf16) (harg7 : arg7.IsWhole)
    (x : Vec F S400x128 .f32) (w1 : Vec F S128x128 .f32) (b1 : Vec F S1x128 .f32)
    (w2 : Vec F S128x128 .f32) (b2 : Vec F S1x128 .f32) (d6 : Vec F S400x128 .f32) (d7 : Vec F S400x128 .bf16)
    (K : PUnit → sProp (MT nD τ sig Unit (Elt F) ℕ (UR sig nD τ) ℕ)) :
    iprop(owns c.tc arg1 fullShare x ∗ owns c.tc arg2 fullShare w1 ∗ owns c.tc arg3 fullShare b1
        ∗ owns c.tc arg4 fullShare w2 ∗ owns c.tc arg5 fullShare b2
        ∗ owns c.tc arg6 fullShare d6 ∗ owns c.tc arg7 fullShare d7
        ∗ (iprop(owns c.tc arg1 fullShare x ∗ owns c.tc arg2 fullShare w1 ∗ owns c.tc arg3 fullShare b1
            ∗ owns c.tc arg4 fullShare w2 ∗ owns c.tc arg5 fullShare b2
            ∗ owns c.tc arg6 fullShare (out0_5 x w1 b1)
            ∗ owns c.tc arg7 fullShare (out0_6 x w1 b1 w2 b2)) -∗ K ⟨⟩))
      ⊢ wp frame (wpE defs₀ Variants.none c none) E
          (cc0__prep_body i arg1 harg1 arg2 harg2 arg3 harg3 arg4 harg4 arg5 harg5 arg6 harg6 arg7 harg7) K := by
  simp only [cc0__prep_body_eq_skeleton]; unfold cc0__prep_body_skel owns
  iintro ⟨⟨%f1, %hf1, H1⟩, ⟨%f2, %hf2, H2⟩, ⟨%f3, %hf3, H3⟩, ⟨%f4, %hf4, H4⟩, ⟨%f5, %hf5, H5⟩,
    ⟨%f6, -, H6⟩, ⟨%f7, -, H7⟩, Hk⟩
  subst hf1 hf2 hf3 hf4 hf5
  sl_exec
  sl_step
  iapply Hk
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]
  · iexists _; iframe H6; ipureintro
    exact View.read_writes_eq_canon _ _ _ (View.cover_of_tiled _ S400x128.size (by rfl))
  iexists _; iframe H7; ipureintro
  exact View.read_writes_eq_canon _ _ _ (View.cover_of_tiled _ S400x128.size (by rfl))

theorem body_obligation0 (c : Dev nD) : BodyObligation (dat0 (F := F) V c) (defs₀ (F := F)) Variants.none () Set.univ := fun t => by
  rw [bigSep_W0, bigSep_W0]
  simp only [before0]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ)
  iframe
  iintro H
  iframe

end Cert.Kernel.Hand

end
-- ==== Proof.KB.Body1.lean ====
import proofs.«103105_g78589311582291_cont_9to1_m_296_15_alg».proof.Proof.Gen.Kernel.Launch
import proofs.«103105_g78589311582291_cont_9to1_m_296_15_alg».proof.Proof.Gen.Kernel.Skeleton
import proofs.«103105_g78589311582291_cont_9to1_m_296_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rSlab : Rect S200x10000 := Rect.unit (s := S200x10000) ![0, 0] S200x10000.size inb_S200x10000_S200x10000_0_0
abbrev rTable : Rect S10000x128 := Rect.unit (s := S10000x128) ![0, 0] S10000x128.size inb_S10000x128_S10000x128_0_0
abbrev rFeat : Rect S400x128 := Rect.unit (s := S400x128) ![0, 0] S400x128.size inb_S400x128_S400x128_0_0
abbrev rWeight : Rect S128x64 := Rect.unit (s := S128x64) ![0, 0] S128x64.size inb_S128x64_S128x64_0_0
abbrev rBias : Rect S1x64 := Rect.unit (s := S1x64) ![0, 0] S1x64.size inb_S1x64_S1x64_0_0
abbrev rRows : Rect S400x10000 := Rect.unit (s := S400x10000) ![0, 0] S400x10000.size inb_S400x10000_S400x10000_0_0
abbrev rHid : Rect S400x64 := Rect.unit (s := S400x64) ![0, 0] S400x64.size inb_S400x64_S400x64_0_0
abbrev rCol : Rect S400x1 := Rect.unit (s := S400x1) ![0, 0] S400x1.size inb_S400x1_S400x1_0_0

abbrev hid1 (x0 x1 : Vec F S200x10000 .f32) (x2 : Vec F S10000x128 .bf16) (x3 : Vec F S400x128 .f32)
    (x4 : Vec F S128x64 .f32) (x5 : Vec F S1x64 .f32) : FVec F S400x64 .f32 :=
  k1_pay7 (View.ld x0 rSlab) (View.ld x1 rSlab) (View.ld x2 rTable) (View.ld x3 rFeat) (View.ld x4 rWeight) (View.ld x5 rBias)

def out1_6 (x0 x1 : Vec F S200x10000 .f32) : Vec F S400x10000 .bf16 :=
  View.canon [⟨rRows, k1_pay5 (View.ld x0 rSlab) (View.ld x1 rSlab)⟩]

def out1_7 (x0 x1 : Vec F S200x10000 .f32) (x2 : Vec F S10000x128 .bf16) (x3 : Vec F S400x128 .f32)
    (x4 : Vec F S128x64 .f32) (x5 : Vec F S1x64 .f32) : Vec F S400x64 .f32 :=
  View.canon [⟨rHid, hid1 x0 x1 x2 x3 x4 x5⟩]

def out1_8 (x0 x1 : Vec F S200x10000 .f32) (x2 : Vec F S10000x128 .bf16) (x3 : Vec F S400x128 .f32)
    (x4 : Vec F S128x64 .f32) (x5 : Vec F S1x64 .f32) : Vec F S400x64 .bf16 :=
  View.canon [⟨rHid, k1_pay1 (hid1 x0 x1 x2 x3 x4 x5)⟩]

def out1_9 (x0 x1 : Vec F S200x10000 .f32) (x2 : Vec F S10000x128 .bf16) : Vec F S400x1 .f32 :=
  View.canon [⟨rCol, k1_pay6 (View.ld x0 rSlab) (View.ld x1 rSlab) (View.ld x2 rTable)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t)
  Φ _ := Pipeline.ΦA spec1 c
  q := fun
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t =
    out1_8 (iblk1 V c 0 t) (iblk1 V c 1 t) (iblk1 V c 2 t) (iblk1 V c 3 t) (iblk1 V c 4 t) (iblk1 V c 5 t) := by dsimp only [dat1]
theorem after1_9 (c : Dev nD) (t : Fin cfg1.N) : (dat1 V c).after 9 t = out1_9 (iblk1 V c 0 t) (iblk1 V c 1 t) (iblk1 V c 2 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> exact Dat.before_in_eq_fetched _ _ rfl (fun _ => rfl) (fun _ _ _ => rfl) (fun _ => rfl) t

set_option maxHeartbeats 4000000 in
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S400x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x10000 .bf16) (harg7 : arg7.IsWhole) (arg8 : Memref sig .tc .vmem S400x64 .f32) (harg8 : arg8.IsWhole)
    (arg9 : Memref sig .tc .vmem S400x64 .bf16) (harg9 : arg9.IsWhole) (arg10 : Memref sig .tc .vmem S400x1 .f32) (harg10 : arg10.IsWhole)
    (x0 x1 : Vec F S200x10000 .f32) (x2 : Vec F S10000x128 .bf16) (x3 : Vec F S400x128 .f32) (x4 : Vec F S128x64 .f32) (x5 : Vec F S1x64 .f32)
    (d6 : Vec F S400x10000 .bf16) (d7 : Vec F S400x64 .f32) (d8 : Vec F S400x64 .bf16) (d9 : Vec F S400x1 .f32) (K : PUnit → sProp (MT nD τ sig Unit (Elt F) ℕ (UR sig nD τ) ℕ)) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare d7 ∗ owns c.tc arg9 fullShare d8 ∗ owns c.tc arg10 fullShare d9
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (out1_6 x0 x1)
            ∗ owns c.tc arg8 fullShare (out1_7 x0 x1 x2 x3 x4 x5)
            ∗ owns c.tc arg9 fullShare (out1_8 x0 x1 x2 x3 x4 x5)
            ∗ owns c.tc arg10 fullShare (out1_9 x0 x1 x2)) -∗ K ⟨⟩))
      ⊢ wp frame (wpE defs₀ Variants.none c none) E
          (cc1__p1_body i arg1 harg1 arg2 harg2 arg3 harg3 arg4 harg4 arg5 harg5 arg6 harg6 arg7 harg7 arg8 harg8 arg9 harg9 arg10 harg10) K := by
  simp only [cc1__p1_body_eq_skeleton]; unfold cc1__p1_body_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, -, H6⟩, ⟨%f7, -, H7⟩, ⟨%f8, -, H8⟩, ⟨%f9, -, H9⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]
  · iexists _; iframe H6; ipureintro
    exact View.read_writes_eq_canon _ _ _ (View.cover_of_tiled _ S400x10000.size (by rfl))
  isplitl [H7]
  · iexists _; iframe H7; ipureintro
    exact View.read_writes_eq_canon _ _ _ (View.cover_of_tiled _ S400x64.size (by rfl))
  isplitl [H8]
  · iexists _; iframe H8; ipureintro; sl_unfold_run_names
    exact View.read_writes_eq_canon _ _ _ (View.cover_of_tiled _ S400x64.size (by rfl))
  iexists _; iframe H9; ipureintro
  exact View.read_writes_eq_canon _ _ _ (View.cover_of_tiled _ S400x1.size (by rfl))

theorem body_obligation1 (c : Dev nD) : BodyObligation (dat1 (F := F) V c) (defs₀ (F := F)) Variants.none () Set.univ := fun t => by
  rw [bigSep_W1, bigSep_W1]
  simp only [before1]
  rw [show (dat1 V c).owesAt () t.succ = (dat1 V c).owesAt () t.castSucc from rfl]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ)
  iframe
  iintro H
  iframe

end Cert.Kernel.Hand

end
-- ==== Proof.KB.Body2.lean ====
import proofs.«103105_g78589311582291_cont_9to1_m_296_15_alg».proof.Proof.Gen.Kernel.Launch
import proofs.«103105_g78589311582291_cont_9to1_m_296_15_alg».proof.Proof.Gen.Kernel.Skeleton
import proofs.«103105_g78589311582291_cont_9to1_m_296_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2Slab : Rect S200x10000 := Rect.unit (s := S200x10000) ![0, 0] S200x10000.size inb_S200x10000_S200x10000_0_0
abbrev rTall : Rect S10000x64 := Rect.unit (s := S10000x64) ![0, 0] S10000x64.size inb_S10000x64_S10000x64_0_0
abbrev rRows64 : Rect S1000x64 := Rect.unit (s := S1000x64) ![0, 0] S1000x64.size inb_S1000x64_S1000x64_0_0
abbrev r2Col : Rect S1000x1 := Rect.unit (s := S1000x1) ![0, 0] S1000x1.size inb_S1000x1_S1000x1_0_0
abbrev rSq : Rect S64x128 := Rect.unit (s := S64x128) ![0, 0] S64x128.size inb_S64x128_S64x128_0_0
abbrev rRow : Rect S1x128 := Rect.unit (s := S1x128) ![0, 0] S1x128.size inb_S1x128_S1x128_0_0
abbrev rProj : Rect S128x40 := Rect.unit (s := S128x40) ![0, 0] S128x40.size inb_S128x40_S128x40_0_0
abbrev rOut128 : Rect S1000x128 := Rect.unit (s := S1000x128) ![0, 0] S1000x128.size inb_S1000x128_S1000x128_0_0
abbrev rOut40 : Rect S1000x40 := Rect.unit (s := S1000x40) ![0, 0] S1000x40.size inb_S1000x40_S1000x40_0_0

def out2_12 (x0 x1 x2 x3 x4 : Vec F S200x10000 .bf16) (x5 : Vec F S10000x64 .bf16) (x6 : Vec F S1000x64 .f32) (x7 : Vec F S1000x1 .f32) (x8 x9 : Vec F S64x128 .f32) (x10 : Vec F S1x128 .f32) : Vec F S1000x128 .f32 :=
  View.canon [⟨rOut128, k2_pay1 (k2_pay3 (View.ld x5 rTall) (View.ld x0 r2Slab) (View.ld x1 r2Slab) (View.ld x2 r2Slab) (View.ld x3 r2Slab) (View.ld x4 r2Slab) (View.ld x7 r2Col) (View.ld x6 rRows64) (View.ld x8 rSq) (View.ld x9 rSq)) (View.ld x10 rRow)⟩]

def out2_13 (x0 x1 x2 x3 x4 : Vec F S200x10000 .bf16) (x5 : Vec F S10000x64 .bf16) (x6 : Vec F S1000x64 .f32) (x7 : Vec F S1000x1 .f32) (x8 x9 : Vec F S64x128 .f32) (x10 : Vec F S1x128 .f32) (x11 : Vec F S128x40 .f32) : Vec F S1000x40 .bf16 :=
  View.canon [⟨rOut40, k2_pay2 (k2_pay3 (View.ld x5 rTall) (View.ld x0 r2Slab) (View.ld x1 r2Slab) (View.ld x2 r2Slab) (View.ld x3 r2Slab) (View.ld x4 r2Slab) (View.ld x7 r2Col) (View.ld x6 rRows64) (View.ld x8 rSq) (View.ld x9 rSq)) (View.ld x10 rRow) (View.ld x11 rProj)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | _ => fullShare
  owed _ := 0

theorem A_eq2 (c : Dev nD) (w : Fin cfg2.W) : (dat2 V c).A w = V c (Pipeline.arrRef spec2 w) := by
  dsimp only [dat2]

theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

theorem before2 (c : Dev nD) (t : Fin cfg2.N) : ∀ (w : Fin cfg2.W), w.val < 12 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d
  | ⟨8, _⟩, _, d | ⟨9, _⟩, _, d | ⟨10, _⟩, _, d | ⟨11, _⟩, _, d =>
    ((dat2 V c).before_in_eq_fetched _ rfl (fun _ => rfl) (fun _ _ _ => rfl) (fun _ => rfl) t d).trans rfl
  | ⟨_ + 12, _⟩, h, _ => absurd h (Nat.not_lt.mpr (Nat.le_add_left _ _))

theorem sound_kernel2 (c : Dev nD) (E : Set ℕ) (i : grid2.Coords) {a1 a2 a3 a4 a5 : Memref sig .tc .vmem S200x10000 .bf16} {a6 : Memref sig .tc .vmem S10000x64 .bf16} {a7 : Memref sig .tc .vmem S1000x64 .f32} {a8 : Memref sig .tc .vmem S1000x1 .f32} {a9 a10 : Memref sig .tc .vmem S64x128 .f32} {a11 : Memref sig .tc .vmem S1x128 .f32} {a12 : Memref sig .tc .vmem S128x40 .f32} {a13 : Memref sig .tc .vmem S1000x128 .f32} {a14 : Memref sig .tc .vmem S1000x40 .bf16}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole}
    (x0 x1 x2 x3 x4 : Vec F S200x10000 .bf16) (x5 : Vec F S10000x64 .bf16) (x6 : Vec F S1000x64 .f32) (x7 : Vec F S1000x1 .f32) (x8 x9 : Vec F S64x128 .f32) (x10 : Vec F S1x128 .f32) (x11 : Vec F S128x40 .f32) (d12 : Vec F S1000x128 .f32) (d13 : Vec F S1000x40 .bf16) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ owns c.tc a11 fullShare x10 ∗ owns c.tc a12 fullShare x11
        ∗ owns c.tc a13 fullShare d12 ∗ owns c.tc a14 fullShare d13
        ∗ (iprop(owns c.tc a13 fullShare (out2_12 x0 x1 x2 x3 x4 x5 x6 x7 x8 x9 x10) ∗ owns c.tc a14 fullShare (out2_13 x0 x1 x2 x3 x4 x5 x6 x7 x8 x9 x10 x11)
            ∗ owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ owns c.tc a11 fullShare x10 ∗ owns c.tc a12 fullShare x11) -∗ K ⟨⟩))
      ⊢ wp frame (wpE (defs₀ (F := F)) Variants.none c none) E (cc2__p2_body i a1 h1 a2 h2 a3 h3 a4 h4 a5 h5 a6 h6 a7 h7 a8 h8 a9 h9 a10 h10 a11 h11 a12 h12 a13 h13 a14 h14) K := by
  simp only [cc2__p2_body_eq_skeleton]; unfold cc2__p2_body_skel
  simp only [k2_part1_eq_skeleton]; unfold k2_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, -, H12⟩, ⟨%f13, -, H13⟩, Hk⟩
  subst e0 e1 e2 e3 e4 e5 e6 e7 e8 e9 e10 e11
  sl_exec
  sl_step
  iapply Hk
  isplitl [H12]
  · iexists _; isplitr
    swap; · iexact H12
    ipureintro
    exact View.read_writes_eq_canon _ _ _ (View.cover_of_tiled _ S1000x128.size (by rfl))
  isplitl [H13]
  · iexists _; isplitr
    swap; · iexact H13
    ipureintro
    exact View.read_writes_eq_canon _ _ _ (View.cover_of_tiled _ S1000x40.size (by rfl))
  sl_close

theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  simp (disch := decide) only [before2 V c t]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ (grid2.coords t))
  iframe
  iintro ⟨H12, H13, H0, H1, H2, H3, H4, H5, H6, H7, H8, H9, H10, H11⟩
  iframe

end Region2

end Cert.Kernel.Hand
-- ==== Proof.KB.Body3.lean ====
import proofs.«103105_g78589311582291_cont_9to1_m_296_15_alg».proof.Proof.Gen.Kernel.Launch
import proofs.«103105_g78589311582291_cont_9to1_m_296_15_alg».proof.Proof.Gen.Kernel.Skeleton
import proofs.«103105_g78589311582291_cont_9to1_m_296_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_slab : Rect S200x10000 := Rect.unit (s := S200x10000) ![0, 0] S200x10000.size inb_S200x10000_S200x10000_0_0
abbrev r3_feat : Rect S10000x40 := Rect.unit (s := S10000x40) ![0, 0] S10000x40.size inb_S10000x40_S10000x40_0_0
abbrev r3_hid : Rect S1000x128 := Rect.unit (s := S1000x128) ![0, 0] S1000x128.size inb_S1000x128_S1000x128_0_0
abbrev r3_col : Rect S1000x1 := Rect.unit (s := S1000x1) ![0, 0] S1000x1.size inb_S1000x1_S1000x1_0_0
abbrev r3_wt : Rect S128x40 := Rect.unit (s := S128x40) ![0, 0] S128x40.size inb_S128x40_S128x40_0_0
abbrev r3_bias : Rect S1x40 := Rect.unit (s := S1x40) ![0, 0] S1x40.size inb_S1x40_S1x40_0_0
abbrev r3_out : Rect S1000x40 := Rect.unit (s := S1000x40) ![0, 0] S1000x40.size inb_S1000x40_S1000x40_0_0

def out3_10 (x0 x1 x2 x3 x4 : Vec F S200x10000 .bf16) (x5 : Vec F S10000x40 .bf16) (x6 : Vec F S1000x128 .f32)
    (x7 : Vec F S1000x1 .f32) (x8 : Vec F S128x40 .f32) (x9 : Vec F S1x40 .f32) : Vec F S1000x40 .f32 :=
  View.canon [⟨r3_out, k3_pay1 (View.ld x5 r3_feat) (View.ld x0 r3_slab) (View.ld x1 r3_slab) (View.ld x2 r3_slab)
    (View.ld x3 r3_slab) (View.ld x4 r3_slab) (View.ld x6 r3_hid) (View.ld x8 r3_wt) (View.ld x7 r3_col) (View.ld x9 r3_bias)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t)
        (iblk3 V c 5 t) (iblk3 V c 6 t) (iblk3 V c 7 t) (iblk3 V c 8 t) (iblk3 V c 9 t)
  Φ _ := Pipeline.ΦA spec3 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | _ => fullShare
  owed _ := 0

theorem A_eq3 (c : Dev nD) (w : Fin cfg3.W) : (dat3 V c).A w = V c (Pipeline.arrRef spec3 w) := by
  dsimp only [dat3]

theorem after3_10 (c : Dev nD) (t : Fin cfg3.N) : (dat3 V c).after 10 t =
    out3_10 (iblk3 V c 0 t) (iblk3 V c 1 t) (iblk3 V c 2 t) (iblk3 V c 3 t) (iblk3 V c 4 t)
      (iblk3 V c 5 t) (iblk3 V c 6 t) (iblk3 V c 7 t) (iblk3 V c 8 t) (iblk3 V c 9 t) := by dsimp only [dat3]

theorem before3 (c : Dev nD) (t : Fin cfg3.N) : ∀ (w : Fin cfg3.W), w.val < 10 → ∀ d, (dat3 V c).before w t d = (dat3 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d
  | ⟨8, _⟩, _, d | ⟨9, _⟩, _, d =>
    ((dat3 V c).before_in_eq_fetched _ rfl (fun _ => rfl) (fun _ _ _ => rfl) (fun _ => rfl) t d).trans rfl
  | ⟨_ + 10, _⟩, h, _ => absurd h (Nat.not_lt.mpr (Nat.le_add_left _ _))

theorem sound_kernel3 (c : Dev nD) (E : Set ℕ) (i : grid3.Coords) {a1 a2 a3 a4 a5 : Memref sig .tc .vmem S200x10000 .bf16} {a6 : Memref sig .tc .vmem S10000x40 .bf16} {a7 : Memref sig .tc .vmem S1000x128 .f32} {a8 : Memref sig .tc .vmem S1000x1 .f32} {a9 : Memref sig .tc .vmem S128x40 .f32} {a10 : Memref sig .tc .vmem S1x40 .f32} {a11 : Memref sig .tc .vmem S1000x40 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole}
    (x0 x1 x2 x3 x4 : Vec F S200x10000 .bf16) (x5 : Vec F S10000x40 .bf16) (x6 : Vec F S1000x128 .f32) (x7 : Vec F S1000x1 .f32) (x8 : Vec F S128x40 .f32) (x9 : Vec F S1x40 .f32) (d10 : Vec F S1000x40 .f32) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9
        ∗ owns c.tc a11 fullShare d10
        ∗ (iprop(owns c.tc a11 fullShare (out3_10 x0 x1 x2 x3 x4 x5 x6 x7 x8 x9)
            ∗ owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9) -∗ K ⟨⟩))
      ⊢ wp frame (wpE (defs₀ (F := F)) Variants.none c none) E (cc3__p3_body i a1 h1 a2 h2 a3 h3 a4 h4 a5 h5 a6 h6 a7 h7 a8 h8 a9 h9 a10 h10 a11 h11) K := by
  simp only [cc3__p3_body_eq_skeleton]; unfold cc3__p3_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, -, H10⟩, Hk⟩
  subst e0 e1 e2 e3 e4 e5 e6 e7 e8 e9
  sl_exec
  sl_step
  iapply Hk
  isplitl [H10]
  · iexists _; isplitr
    swap; · iexact H10
    ipureintro
    exact View.read_writes_eq_canon _ _ _ (View.cover_of_tiled _ S1000x40.size (by rfl))
  sl_close

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp (disch := decide) only [before3 V c t]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ (grid3.coords t))
  iframe
  iintro ⟨H10, H0, H1, H2, H3, H4, H5, H6, H7, H8, H9⟩
  iframe

end Region3

end Cert.Kernel.Hand

end
-- ==== Proof.LibShared.lean ====
import Idealize.ShloMosaic.Lib.Pipeline.Frame
import Idealize.ShloMosaic.Lib.Pipeline.Regions
import Idealize.ShloMosaic.Lib.Pipeline.RegionsLoop

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg arrRef arrBufs unscopedRest WinSpec ucRefs unscopedBufs_held)
open Idealize.SL.BI (bigSepL bigSep_eq_bigSepL)

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem update_of_ne {W : Valuation τ sig Val} {a r : Ref sig .tc} {v} (h : r ≠ a) :
    Function.update W (Proc.devRef .tc a) v (Proc.devRef .tc r) = W (Proc.devRef .tc r) :=
  Function.update_of_ne (StableHlo.devRef_ne_of_ne h) _ _

section Shared

variable {gr : Nat} {W : Nat} (win : Fin W → WinSpec sig gr) (c : Dev nD)

/-- The distinct buffers behind the arrays are r₀, where the windows of S lie, and one buffer for each window off S. -/
theorem arrBufs_eq (q : Fin W → PosShare TreeShare) (S : Finset (Fin W)) (r₀ : Ref sig .tc)
    (hS : ∀ w ∈ S, arrRef win w = r₀) (hSne : S.Nonempty)
    (hinj : Set.InjOn (arrRef win) ↑(Finset.univ \ S)) (hne : ∀ w, w ∉ S → arrRef win w ≠ r₀)
    (hfull : ∀ w, w ∉ S → q w = fullShare)
    (V : (b : Ref sig .tc) → Buf Val ((c.tc : Thread nD τ).loc b)) :
    (arrBufs win c V : sProp 𝕄)
      = iprop((((c.tc : Thread nD τ).loc r₀) ↦{fullShare} V r₀)
          ∗ bigSep (Finset.univ \ S) fun w : Fin W => ((c.tc : Thread nD τ).loc (arrRef win w)) ↦{q w} V (arrRef win w)) := by
  classical
  have himg : Finset.univ.image (arrRef win) = insert r₀ ((Finset.univ \ S).image (arrRef win)) := by
    ext b
    simp only [Finset.mem_image, Finset.mem_univ, true_and, Finset.mem_insert, Finset.mem_sdiff]
    constructor
    · rintro ⟨w, rfl⟩
      by_cases hw : w ∈ S
      · exact Or.inl (hS w hw)
      · exact Or.inr ⟨w, hw, rfl⟩
    · rintro (rfl | ⟨w, -, rfl⟩)
      · obtain ⟨w, hw⟩ := hSne; exact ⟨w, hS w hw⟩
      · exact ⟨w, rfl⟩
  unfold arrBufs
  rw [himg, bigSep_insert (fun hm => ?_), bigSep_image_of_injOn hinj]
  · exact congrArg _ (bigSep_congr fun w hw => by rw [hfull w (Finset.mem_sdiff.mp hw).2])
  · obtain ⟨w, hw, e⟩ := Finset.mem_image.mp hm
    exact hne w (Finset.mem_sdiff.mp hw).2 e

variable {Λ₀ : Labels} {cfg : Cfg sig Λ₀} {c}

abbrev atTc (c : Dev nD) (Wv : Valuation τ sig Val) : (b : Ref sig .tc) → Buf Val ((c.tc : Thread nD τ).loc b) := fun b => Wv b

/-- The unscoped buffers are the region's arrays and the rest, the windows on r₀ dividing its full share among them. -/
theorem held_eq_arrays (dat : Dat τ Val Ix Name U Lvl cfg c) (harr : ∀ w, (cfg.spec w).arr.IsWhole)
    (hunscoped : ∀ w, (arrRef cfg.spec w).isScoped = false)
    (S : Finset (Fin cfg.W)) (r₀ : Ref sig .tc)
    (hS : ∀ w ∈ S, arrRef cfg.spec w = r₀) (hSne : S.Nonempty)
    (hinj : Set.InjOn (arrRef cfg.spec) ↑(Finset.univ \ S)) (hne : ∀ w, w ∉ S → arrRef cfg.spec w ≠ r₀)
    (hfull : ∀ w, w ∉ S → dat.share w = fullShare)
    (Wv : Valuation τ sig Val)
    (hshare : (((c.tc : Thread nD τ).loc r₀) ↦{fullShare} atTc c Wv r₀ : sProp 𝕄)
      = bigSep S fun w : Fin cfg.W => ((c.tc : Thread nD τ).loc r₀) ↦{dat.share w} atTc c Wv r₀)
    (F : (w : Fin cfg.W) → Buf Val ((cfg.win w).arr.view.loc (c.tc : Thread nD τ))) (hF : ∀ w, F w = atTc c Wv (arrRef cfg.spec w)) :
    (StableHlo.held (c.tc : Thread nD τ) (ucRefs τ sig) Wv : sProp 𝕄)
      = iprop(dat.arrays F ∗ unscopedRest cfg.spec c (atTc c Wv)) := by
  classical
  have hA : (dat.arrays F : sProp 𝕄)
      = bigSep Finset.univ fun w : Fin cfg.W => ((c.tc : Thread nD τ).loc (arrRef cfg.spec w)) ↦{dat.share w} atTc c Wv (arrRef cfg.spec w) := by
    unfold Dat.arrays
    exact bigSep_congr fun w _ => by rw [(harr w).set_eq_univ, hF]
  rw [← unscopedBufs_held (Ix := Ix) (Name := Name) (U := U) (Lvl := Lvl) c Wv,
    Pipeline.unscopedBufs_split₀ (fun _ : Unit => cfg) () hunscoped c,
    arrBufs_eq cfg.spec c dat.share S r₀ hS hSne hinj hne hfull, hshare, hA, bigSep_sdiff_split (Finset.subset_univ S)]
  refine congrArg₂ _ (congrArg₂ _ (bigSep_congr fun w hw => ?_) rfl) rfl
  exact congrArg (fun b => (((c.tc : Thread nD τ).loc b) ↦{dat.share w} atTc c Wv b : sProp 𝕄)) (hS w hw).symm

/-- The windows of l, all inputs, lie on the buffer r₀; the others lie on distinct buffers off it. -/
abbrev SharedOn (cfg : Cfg sig Λ₀) (l : List (Fin cfg.W)) (r₀ : Ref sig .tc) : Prop :=
  l ≠ [] ∧ l.Nodup ∧ (∀ w ∈ l, (cfg.win w).isOut = false ∧ arrRef cfg.spec w = r₀)
    ∧ (∀ a, a ∉ l → ∀ b, b ∉ l → arrRef cfg.spec a = arrRef cfg.spec b → a = b) ∧ ∀ w, w ∉ l → arrRef cfg.spec w ≠ r₀

/-- held_eq_arrays for windows given as a list, the full share of r₀ being the chain of their shares. -/
theorem held_eq_arraysL (dat : Dat τ Val Ix Name U Lvl cfg c) (harr : ∀ w, (cfg.spec w).arr.IsWhole)
    (hunscoped : ∀ w, (arrRef cfg.spec w).isScoped = false)
    (l : List (Fin cfg.W)) (r₀ : Ref sig .tc) (h : SharedOn cfg l r₀)
    (hq : ∀ w, w ∉ l → dat.q w = fullShare) (Wv : Valuation τ sig Val)
    (hshare : (((c.tc : Thread nD τ).loc r₀) ↦{fullShare} atTc c Wv r₀ : sProp 𝕄)
      = bigSepL l fun w : Fin cfg.W => ((c.tc : Thread nD τ).loc r₀) ↦{dat.q w} atTc c Wv r₀)
    (F : (w : Fin cfg.W) → Buf Val ((cfg.win w).arr.view.loc (c.tc : Thread nD τ))) (hF : ∀ w, F w = atTc c Wv (arrRef cfg.spec w)) :
    (StableHlo.held (c.tc : Thread nD τ) (ucRefs τ sig) Wv : sProp 𝕄)
      = iprop(dat.arrays F ∗ unscopedRest cfg.spec c (atTc c Wv)) := by
  have hm {w} : w ∈ l.toFinset ↔ w ∈ l := List.mem_toFinset
  obtain ⟨hl, hnd, hon, hinj, hoff⟩ := h
  obtain ⟨w₀, hw₀⟩ := List.exists_mem_of_ne_nil l hl
  refine held_eq_arrays dat harr hunscoped l.toFinset r₀ (fun w hw => (hon w (hm.mp hw)).2) ⟨w₀, hm.mpr hw₀⟩
    (fun a ha b hb => hinj a (fun hh => (Finset.mem_sdiff.mp ha).2 (hm.mpr hh)) b (fun hh => (Finset.mem_sdiff.mp hb).2 (hm.mpr hh)))
    (fun w hw => hoff w fun hh => hw (hm.mpr hh))
    (fun w hw => by unfold Dat.share; split; · rfl
                    · exact hq w fun hh => hw (hm.mpr hh)) Wv ?_ F hF
  rw [hshare, ← bigSep_eq_bigSepL l hnd]
  exact bigSep_congr fun w hw => by unfold Dat.share; rw [(hon w (hm.mp hw)).1]; rfl

/-- The buffers that are no window's array, at two valuations that agree on them. -/
theorem unscopedRest_congr {V V' : (b : Ref sig .tc) → Buf Val ((c.tc : Thread nD τ).loc b)}
    (h : ∀ b : Ref sig .tc, b ∉ Finset.univ.image (arrRef cfg.spec) → V' b = V b) :
    (unscopedRest cfg.spec c V : sProp 𝕄) = unscopedRest cfg.spec c V' := by
  unfold unscopedRest
  exact bigSep_congr fun b hb => by rw [h b (Finset.mem_sdiff.mp hb).2]

/-- After the last point an input window's array is as at entry, and no output of the list outs lies on its buffer. -/
theorem arrAt_final (dat : Dat τ Val Ix Name U Lvl cfg c) {V V' : (b : Ref sig .tc) → Buf Val ((c.tc : Thread nD τ).loc b)}
    (hA : ∀ w, dat.A w = V (arrRef cfg.spec w)) (outs : List (Ref sig .tc)) (hV : ∀ r, r ∉ outs → V' r = V r)
    (hin : ∀ w, (cfg.win w).isOut = false → arrRef cfg.spec w ∉ outs)
    (hout : ∀ w, (cfg.win w).isOut = true → dat.arrAt w cfg.N = V' (arrRef cfg.spec w)) (w : Fin cfg.W) :
    dat.arrAt w cfg.N = V' (arrRef cfg.spec w) := by
  cases h : (cfg.win w).isOut
  · exact (dat.arrAt_in w h _).trans ((hA w).trans (hV _ (hin w h)).symm)
  · exact hout w h

/-- Off the windows' buffers a valuation that differs only at outputs, all of them windows' buffers, is unchanged. -/
theorem off_arrays {V V' : (b : Ref sig .tc) → Buf Val ((c.tc : Thread nD τ).loc b)} (outs : List (Ref sig .tc))
    (hV : ∀ r, r ∉ outs → V' r = V r) (himg : ∀ r ∈ outs, r ∈ Finset.univ.image (arrRef cfg.spec))
    (b : Ref sig .tc) (hb : b ∉ Finset.univ.image (arrRef cfg.spec)) : V' b = V b :=
  hV b fun hm => hb (himg b hm)

variable (ℓ : Loc nD τ sig) (f : Buf Val ℓ) (q : PosShare TreeShare)

theorem share_two : (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

theorem share_five :
    (ℓ ↦{q} f : sProp 𝕄) = iprop((ℓ ↦{q.left} f) ∗ (ℓ ↦{q.right.left} f) ∗ (ℓ ↦{q.right.right.left} f)
        ∗ (ℓ ↦{q.right.right.right.left} f) ∗ ℓ ↦{q.right.right.right.right} f) := by
  rw [← share_two ℓ f q.right.right.right, ← share_two ℓ f q.right.right, ← share_two ℓ f q.right, ← share_two ℓ f q]

end Shared

section Segment

variable [Preorder Lvl]

/-- Entry of a region: its arrays are split off from what the core holds, and everything else is carried along. -/
theorem seg_entry (c : Dev nD) {H A Z X E Lv T : sProp 𝕄} {O : CellTallies nD τ sig Ix} {B : Set (SemLoc sig × Ix)}
    (hsplit : H ⊢ iprop(A ∗ Z)) (hT : (BI.emp : sProp 𝕄) ⊢ T) (hB : ∀ x, x ∈ B) :
    iprop((H ∗ X ∗ ∃ W, owes (c.tc : Thread nD τ) O W) ∗ E ∗ Lv) ⊢ |={Set.univ}=> iprop(A ∗ T ∗ Pipeline.owesWithin c O B ∗ X ∗ Z) := by
  iintro ⟨⟨Hub, Hp, HO⟩, -, -⟩
  ihave H := hsplit $$ Hub
  icases H with ⟨Ha, Hrest⟩
  imodintro
  isplitl [Ha]; · iexact Ha
  isplitr; · iapply hT; iempintro
  isplitl [HO]
  · icases HO with ⟨%W, HO⟩; iexists W; isplitr; · ipureintro; exact fun x _ => hB x
    iexact HO
  isplitl [Hp]; · iexact Hp
  iexact Hrest

/-- Exit of a region: the arrays go back among the held buffers. -/
theorem seg_exit (c : Dev nD) {H A Z Y Q : sProp 𝕄} {O : CellTallies nD τ sig Ix} {B : Set (SemLoc sig × Ix)}
    (hjoin : iprop(A ∗ Z) ⊢ H) (hpost : iprop(H ∗ Y ∗ ∃ W, owes (c.tc : Thread nD τ) O W) ⊢ Q) :
    iprop(A ∗ Pipeline.owesWithin c O B ∗ Y ∗ Z) ⊢ |={Set.univ}=> Q := by
  iintro ⟨Ha, HO, HY, Hrest⟩
  imodintro
  iapply hpost
  isplitl [Ha Hrest]
  · iapply hjoin; isplitl [Ha] <;> iassumption
  isplitl [HY]; · iexact HY
  icases HO with ⟨%W, -, HO⟩; iexists W; iexact HO

theorem seg_in {X T S : sProp 𝕄} : iprop(X ∗ T ∗ S) ⊢ iprop(S ∗ X) := by
  iintro ⟨Hp, -, Hr⟩
  isplitl [Hr] <;> iassumption

theorem seg_out {X S : sProp 𝕄} : iprop(S ∗ X) ⊢ iprop(X ∗ emp ∗ S) := by
  iintro ⟨Hr, Hp⟩
  isplitl [Hp]; · iexact Hp
  isplitr; · iempintro
  iexact Hr

end Segment

end Cert.Hand

end
-- ==== Proof.KB.Vals.lean ====
import proofs.«103105_g78589311582291_cont_9to1_m_296_15_alg».proof.Proof.KB.Body0
import proofs.«103105_g78589311582291_cont_9to1_m_296_15_alg».proof.Proof.KB.Body1
import proofs.«103105_g78589311582291_cont_9to1_m_296_15_alg».proof.Proof.KB.Body2
import proofs.«103105_g78589311582291_cont_9to1_m_296_15_alg».proof.Proof.KB.Body3
import proofs.«103105_g78589311582291_cont_9to1_m_296_15_alg».proof.Proof.Gen.Kernel.Regions
import proofs.«103105_g78589311582291_cont_9to1_m_296_15_alg».proof.Proof.LibShared

noncomputable section

namespace Cert.Kernel.Hand

open Idealize.ShloMosaic Idealize.ShloMosaic.TcCoe
open Idealize.SL Idealize.SL.Sem
open Idealize.ShloMosaic.Pipeline (Dat)
open Cert.Kernel Cert.Kernel.Gen Cert.Hand

variable {F : FTy → Type} [FloatOps F]
variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := fun c b => W1 m c b

def W2 (c : Dev nD) : Valuation τ sig (Elt F) :=
  Function.update (Function.update (W1 m c) main_v14_0 ((dat0 (V1 m) c).arrAt 5 cfg0.N)) main_v14_1 ((dat0 (V1 m) c).arrAt 6 cfg0.N)
abbrev V2 : (c : Dev nD) → (b : Ref sig .tc) → Buf (Elt F) ((c : Thread nD τ).loc b) := fun c b => W2 m c b

def W3 (c : Dev nD) : Valuation τ sig (Elt F) :=
  Function.update (Function.update (Function.update (Function.update (W2 m c) main_v15_0 ((dat1 (V2 m) c).arrAt 6 cfg1.N)) main_v15_1 ((dat1 (V2 m) c).arrAt 7 cfg1.N)) main_v15_2 ((dat1 (V2 m) c).arrAt 8 cfg1.N)) main_v15_3 ((dat1 (V2 m) c).arrAt 9 cfg1.N)
abbrev V3 : (c : Dev nD) → (b : Ref sig .tc) → Buf (Elt F) ((c : Thread nD τ).loc b) := fun c b => W3 m c b

def W4 (c : Dev nD) : Valuation τ sig (Elt F) :=
  Function.update (Function.update (W3 m c) main_v16_0 ((dat2 (V3 m) c).arrAt 12 cfg2.N)) main_v16_1 ((dat2 (V3 m) c).arrAt 13 cfg2.N)
abbrev V4 : (c : Dev nD) → (b : Ref sig .tc) → Buf (Elt F) ((c : Thread nD τ).loc b) := fun c b => W4 m c b

def W5 (c : Dev nD) : Valuation τ sig (Elt F) :=
  Function.update (W4 m c) main_v17 ((dat3 (V4 m) c).arrAt 10 cfg3.N)

theorem W2_main_v14_0 (c : Dev nD) : W2 m c main_v14_0 = (dat0 (V1 m) c).arrAt 5 cfg0.N := by
  unfold W2; rw [update_of_ne, Function.update_self] <;> decide
theorem W2_main_v14_1 (c : Dev nD) : W2 m c main_v14_1 = (dat0 (V1 m) c).arrAt 6 cfg0.N := by
  unfold W2; rw [Function.update_self]
theorem W2_of (c : Dev nD) (r : Ref sig .tc) (h : r ∉ ([main_v14_0, main_v14_1] : List (Ref sig .tc))) : W2 m c r = W1 m c r := by
  unfold W2; rw [update_of_ne (List.ne_of_not_mem_cons (List.not_mem_of_not_mem_cons h)), update_of_ne (List.ne_of_not_mem_cons h)]

theorem W3_main_v15_0 (c : Dev nD) : W3 m c main_v15_0 = (dat1 (V2 m) c).arrAt 6 cfg1.N := by
  unfold W3; rw [update_of_ne, update_of_ne, update_of_ne, Function.update_self] <;> decide
theorem W3_main_v15_1 (c : Dev nD) : W3 m c main_v15_1 = (dat1 (V2 m) c).arrAt 7 cfg1.N := by
  unfold W3; rw [update_of_ne, update_of_ne, Function.update_self] <;> decide
theorem W3_main_v15_2 (c : Dev nD) : W3 m c main_v15_2 = (dat1 (V2 m) c).arrAt 8 cfg1.N := by
  unfold W3; rw [update_of_ne, Function.update_self] <;> decide
theorem W3_main_v15_3 (c : Dev nD) : W3 m c main_v15_3 = (dat1 (V2 m) c).arrAt 9 cfg1.N := by
  unfold W3; rw [Function.update_self]
theorem W3_of (c : Dev nD) (r : Ref sig .tc) (h : r ∉ ([main_v15_0, main_v15_1, main_v15_2, main_v15_3] : List (Ref sig .tc))) : W3 m c r = W2 m c r := by
  have h1 := List.not_mem_of_not_mem_cons h
  have h2 := List.not_mem_of_not_mem_cons h1
  unfold W3; rw [update_of_ne (List.ne_of_not_mem_cons (List.not_mem_of_not_mem_cons h2)), update_of_ne (List.ne_of_not_mem_cons h2),
    update_of_ne (List.ne_of_not_mem_cons h1), update_of_ne (List.ne_of_not_mem_cons h)]

theorem W4_main_v16_0 (c : Dev nD) : W4 m c main_v16_0 = (dat2 (V3 m) c).arrAt 12 cfg2.N := by
  unfold W4; rw [update_of_ne, Function.update_self] <;> decide
theorem W4_main_v16_1 (c : Dev nD) : W4 m c main_v16_1 = (dat2 (V3 m) c).arrAt 13 cfg2.N := by
  unfold W4; rw [Function.update_self]
theorem W4_of (c : Dev nD) (r : Ref sig .tc) (h : r ∉ ([main_v16_0, main_v16_1] : List (Ref sig .tc))) : W4 m c r = W3 m c r := by
  unfold W4; rw [update_of_ne (List.ne_of_not_mem_cons (List.not_mem_of_not_mem_cons h)), update_of_ne (List.ne_of_not_mem_cons h)]

theorem W5_main_v17 (c : Dev nD) : W5 m c main_v17 = (dat3 (V4 m) c).arrAt 10 cfg3.N := by
  unfold W5; rw [Function.update_self]
theorem W5_of (c : Dev nD) (r : Ref sig .tc) (h : r ∉ ([main_v17] : List (Ref sig .tc))) : W5 m c r = W4 m c r := by
  unfold W5; rw [update_of_ne (List.ne_of_not_mem_cons h)]

-- An array that neither the host operations nor any region writes reaches the end as launched.
theorem W5_kept (c : Dev nD) (r : Ref sig .tc)
    (h : r ∉ ([main_v17] : List (Ref sig .tc)) ∧ r ∉ ([main_v16_0, main_v16_1] : List (Ref sig .tc))
      ∧ r ∉ ([main_v15_0, main_v15_1, main_v15_2, main_v15_3] : List (Ref sig .tc)) ∧ r ∉ ([main_v14_0, main_v14_1] : List (Ref sig .tc)) ∧ r ∉ hostOps0_W) :
    W5 m c r = m ((c : Thread nD τ).loc r) :=
  (W5_of m c r h.1).trans <| (W4_of m c r h.2.1).trans <| (W3_of m c r h.2.2.1).trans <| (W2_of m c r h.2.2.2.1).trans <| Gen.V1_of m c r h.2.2.2.2

end Cert.Kernel.Hand

end
-- ==== Proof.KB.Shared.lean ====
import proofs.«103105_g78589311582291_cont_9to1_m_296_15_alg».proof.Proof.Gen.Kernel.Launch
import proofs.«103105_g78589311582291_cont_9to1_m_296_15_alg».proof.Proof.LibShared

namespace Cert.Kernel.Hand

open Idealize.ShloMosaic Idealize.ShloMosaic.TcCoe
open Idealize.ShloMosaic.Pipeline (arrRef)
open Cert.Kernel Cert.Kernel.Gen Cert.Hand

/-- The first region's windows lie on buffers of their own; the second reads the 10000 x 10000 argument through two windows, the third and fourth one intermediate through five. -/
theorem shared0 : SharedOn cfg0 [0] (arrRef spec0 0) := by decide
theorem shared1 : SharedOn cfg1 [0, 1] main_arg1 := by decide
theorem shared2 : SharedOn cfg2 [0, 1, 2, 3, 4] main_v15_0 := by decide
theorem shared3 : SharedOn cfg3 [0, 1, 2, 3, 4] main_v15_0 := by decide

end Cert.Kernel.Hand
-- ==== Proof.KB.Regs.lean ====
import proofs.«103105_g78589311582291_cont_9to1_m_296_15_alg».proof.Proof.KB.Body0
import proofs.«103105_g78589311582291_cont_9to1_m_296_15_alg».proof.Proof.KB.Body1
import proofs.«103105_g78589311582291_cont_9to1_m_296_15_alg».proof.Proof.KB.Body2
import proofs.«103105_g78589311582291_cont_9to1_m_296_15_alg».proof.Proof.KB.Body3
import proofs.«103105_g78589311582291_cont_9to1_m_296_15_alg».proof.Proof.KB.Shared
import proofs.«103105_g78589311582291_cont_9to1_m_296_15_alg».proof.Proof.KB.Vals

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef)
open Cert.Kernel Cert.Kernel.Gen Cert.Hand

variable {F : FTy → Type} [FloatOps F]

local notation "𝕄" => MT nD τ sig Unit (Elt F) ℕ (UR sig nD τ) ℕ

variable (m : (ℓ : Loc nD τ sig) → Buf (Elt F) ℓ)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c

abbrev 𝒱₀ : Variants := Variants.none
abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev Tₙ (c : Dev nD) : sProp 𝕄 :=
  iprop(StableHlo.held (c : Thread nD τ) (Pipeline.ucRefs τ sig) (W5 m c) ∗ ∃ r, prngReg c r)

abbrev heldAt (W : Dev nD → Valuation τ sig (Elt F)) (c : Dev nD) : sProp 𝕄 :=
  iprop(StableHlo.held (c : Thread nD τ) (Pipeline.ucRefs τ sig) (W c) ∗ R c)

abbrev restAt (p : Fin 4) (W : Dev nD → Valuation τ sig (Elt F)) (c : Dev nD) : sProp 𝕄 :=
  Pipeline.unscopedRest (Ix := Unit) (Name := ℕ) (U := UR sig nD τ) (Lvl := ℕ) (cfgs p).spec c (atTc c (W c))

/-- At every valuation the unscoped buffers are region p's arrays, at what the valuation has there, and the rest. -/
abbrev HeldEq (p : Fin 4) : Prop :=
  ∀ (c : Dev nD) (Wv : Valuation τ sig (Elt F)) (G : (w : Fin (cfgs p).W) → Buf (Elt F) (((cfgs p).win w).arr.view.loc (c : Thread nD τ))),
    (∀ w, G w = atTc c Wv (arrRef (cfgs p).spec w)) → (StableHlo.held (c : Thread nD τ) (Pipeline.ucRefs τ sig) Wv : sProp 𝕄)
      = iprop((pdats m p c).arrays G ∗ Pipeline.unscopedRest (cfgs p).spec c (atTc c Wv))

set_option backward.isDefEq.respectTransparency.types false in
/-- A region entered with every unscoped buffer held at Wa and left with them at Wb, where Wb is Wa with the final arrays put in. -/
def regOf (p : Fin 4) (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pdats m p c) (defs₀ (F := F)) Variants.none () Set.univ)
    (howed : ∀ c t, (pdats m p c).owed t = 0) (hrec : ∀ c x, x ∈ (pdats m p c).recorded 0)
    (hΦ : ∀ c t, (pdats m p c).Φ t = Pipeline.ΦA (cfgs p).spec c)
    (Wa Wb : Dev nD → Valuation τ sig (Elt F)) (post : Dev nD → sProp 𝕄) (hpost : ∀ c, heldAt Wb c ⊢ post c)
    (held : HeldEq m p) (hA : ∀ c w, (pdats m p c).arrAt w 0 = atTc c (Wa c) (arrRef (cfgs p).spec w))
    (hfin : ∀ c w, (pdats m p c).arrAt w (cfgs p).N = atTc c (Wb c) (arrRef (cfgs p).spec w))
    (hoff : ∀ c (b : Ref sig .tc), b ∉ Finset.univ.image (arrRef (cfgs p).spec) → atTc c (Wb c) b = atTc c (Wa c) b) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre := heldAt Wa
  post := post
  X c := iprop(∃ r, prngReg c r)
  Y c := iprop(∃ r, prngReg c r)
  Z := restAt p Wa
  hentry c := by
    have h := seg_entry c (X := iprop(∃ r, prngReg c r)) (E := Pipeline.ownSems0 (fun k : PEmpty => k.elim) c) (Lv := levAts L lv)
      (T := Pipeline.prefHeld (pcfgs (F := F) p).pre c (fun _ => fullShare) (adm p).1) (B := (pdats m p c).bound () 0) (O := 0) (Entails.of_eq (held c _ _ (hA c)))
      (by unfold Pipeline.prefHeld; rw [show (Finset.univ : Finset (Fin 0)) = ∅ from rfl, BI.bigSep_empty]) (fun x => Or.inl (hrec c x))
    unfold Pipeline.Dat.owesAt; rw [howed c 0]; exact h
  hin c := by rw [hΦ c 0]; exact seg_in
  hout c := by rw [hΦ c, Pipeline.ownSems0_none]; exact seg_out
  hexit c := by
    unfold Pipeline.Dat.owesAt; rw [howed c]
    refine seg_exit c ?_ (hpost c)
    rw [show restAt p Wa c = restAt p Wb c from unscopedRest_congr (hoff c)]
    exact Entails.of_eq (held c _ _ (hfin c)).symm

theorem arrAt_final0 (c : Dev nD) : ∀ w, (dat0 (V1 m) c).arrAt w cfg0.N = atTc c (W2 m c) (arrRef spec0 w) :=
  arrAt_final (dat0 (V1 m) c) (A_eq0 (V1 m) c) [main_v14_0, main_v14_1] (W2_of m c) (by decide) fun w h => by
    rcases (by decide : ∀ w : Fin cfg0.W, (cfg0.win w).isOut = true → w = 5 ∨ w = 6) w h with rfl | rfl
    exacts [(W2_main_v14_0 m c).symm, (W2_main_v14_1 m c).symm]

theorem held0 : HeldEq m 0 := fun c Wv G hG =>
  held_eq_arraysL (dat0 (V1 m) c) launch0.arr_whole launch0.win.arr_unscoped _ _ shared0 (fun _ _ => rfl) Wv rfl G hG

def reg0 : Pipeline.RegionSeg (pcfgs (F := F)) adm (pdats m) () defs₀ 𝒱₀ L lv 0 :=
  regOf m 0 launch0.win.to₀ launch0.block_pos launch0.stage_whole (body_obligation0 (V1 m)) (fun _ _ => rfl) (fun _ _ => trivial) (fun _ _ => rfl)
    (W1 m) (W2 m) _ (fun _ => .rfl) (held0 m) (A_eq0 (V1 m)) (arrAt_final0 m)
    fun c => off_arrays [main_v14_0, main_v14_1] (W2_of m c) (by decide)

theorem arrAt_final1 (c : Dev nD) : ∀ w, (dat1 (V2 m) c).arrAt w cfg1.N = atTc c (W3 m c) (arrRef spec1 w) :=
  arrAt_final (dat1 (V2 m) c) (A_eq1 (V2 m) c) [main_v15_0, main_v15_1, main_v15_2, main_v15_3] (W3_of m c) (by decide) fun w h => by
    rcases (by decide : ∀ w : Fin cfg1.W, (cfg1.win w).isOut = true → w = 6 ∨ w = 7 ∨ w = 8 ∨ w = 9) w h with rfl | rfl | rfl | rfl
    exacts [(W3_main_v15_0 m c).symm, (W3_main_v15_1 m c).symm, (W3_main_v15_2 m c).symm, (W3_main_v15_3 m c).symm]

theorem q_rest1 (c : Dev nD) (w : Fin cfg1.W) (hw : w ∉ ([0, 1] : List (Fin cfg1.W))) : (dat1 (V2 m) c).q w = fullShare := by
  rcases (by decide : ∀ w : Fin cfg1.W, w ∉ ([0, 1] : List (Fin cfg1.W)) → w = 2 ∨ w = 3 ∨ w = 4 ∨ w = 5 ∨ w = 6 ∨ w = 7 ∨ w = 8 ∨ w = 9) w hw
    with rfl | rfl | rfl | rfl | rfl | rfl | rfl | rfl <;> rfl

theorem held1 : HeldEq m 1 := fun c Wv G hG =>
  held_eq_arraysL (dat1 (V2 m) c) arr_whole1 winFacts₀1.arr_unscoped _ main_arg1 shared1 (q_rest1 m c) Wv (share_two _ _ _) G hG

def reg1 : Pipeline.RegionSeg (pcfgs (F := F)) adm (pdats m) () defs₀ 𝒱₀ L lv 1 :=
  regOf m 1 winFacts₀1 block_pos1 stage_whole1 (body_obligation1 (V2 m)) (fun _ _ => rfl) (fun _ _ => trivial) (fun _ _ => rfl)
    (W2 m) (W3 m) _ (fun _ => .rfl)
    (held1 m) (A_eq1 (V2 m)) (arrAt_final1 m) fun c => off_arrays [main_v15_0, main_v15_1, main_v15_2, main_v15_3] (W3_of m c) (by decide)

theorem arrAt_final2 (c : Dev nD) : ∀ w, (dat2 (V3 m) c).arrAt w cfg2.N = atTc c (W4 m c) (arrRef spec2 w) :=
  arrAt_final (dat2 (V3 m) c) (A_eq2 (V3 m) c) [main_v16_0, main_v16_1] (W4_of m c) (by decide) fun w h => by
    rcases (by decide : ∀ w : Fin cfg2.W, (cfg2.win w).isOut = true → w = 12 ∨ w = 13) w h with rfl | rfl
    exacts [(W4_main_v16_0 m c).symm, (W4_main_v16_1 m c).symm]

theorem q_rest2 (c : Dev nD) (w : Fin cfg2.W) (hw : w ∉ ([0, 1, 2, 3, 4] : List (Fin cfg2.W))) : (dat2 (V3 m) c).q w = fullShare := by
  rcases (by decide : ∀ w : Fin cfg2.W, w ∉ ([0, 1, 2, 3, 4] : List (Fin cfg2.W)) → w = 5 ∨ w = 6 ∨ w = 7 ∨ w = 8 ∨ w = 9 ∨ w = 10 ∨ w = 11 ∨ w = 12 ∨ w = 13) w hw
    with rfl | rfl | rfl | rfl | rfl | rfl | rfl | rfl | rfl <;> rfl

theorem held2 : HeldEq m 2 := fun c Wv G hG =>
  held_eq_arraysL (dat2 (V3 m) c) arr_whole2 winFacts₀2.arr_unscoped _ main_v15_0 shared2 (q_rest2 m c) Wv (share_five _ _ _) G hG

def reg2 : Pipeline.RegionSeg (pcfgs (F := F)) adm (pdats m) () defs₀ 𝒱₀ L lv 2 :=
  regOf m 2 winFacts₀2 block_pos2 stage_whole2 (body_obligation2 (V3 m)) (fun _ _ => rfl) (fun _ _ => trivial) (fun _ _ => rfl)
    (W3 m) (W4 m) _ (fun _ => .rfl)
    (held2 m) (A_eq2 (V3 m)) (arrAt_final2 m) fun c => off_arrays [main_v16_0, main_v16_1] (W4_of m c) (by decide)

theorem arrAt_final3 (c : Dev nD) : ∀ w, (dat3 (V4 m) c).arrAt w cfg3.N = atTc c (W5 m c) (arrRef spec3 w) :=
  arrAt_final (dat3 (V4 m) c) (A_eq3 (V4 m) c) [main_v17] (W5_of m c) (by decide) fun w h => by
    rcases (by decide : ∀ w : Fin cfg3.W, (cfg3.win w).isOut = true → w = 10) w h with rfl
    exacts [(W5_main_v17 m c).symm]

theorem q_rest3 (c : Dev nD) (w : Fin cfg3.W) (hw : w ∉ ([0, 1, 2, 3, 4] : List (Fin cfg3.W))) : (dat3 (V4 m) c).q w = fullShare := by
  rcases (by decide : ∀ w : Fin cfg3.W, w ∉ ([0, 1, 2, 3, 4] : List (Fin cfg3.W)) → w = 5 ∨ w = 6 ∨ w = 7 ∨ w = 8 ∨ w = 9 ∨ w = 10) w hw
    with rfl | rfl | rfl | rfl | rfl | rfl <;> rfl

theorem held3 : HeldEq m 3 := fun c Wv G hG =>
  held_eq_arraysL (dat3 (V4 m) c) arr_whole3 winFacts₀3.arr_unscoped _ main_v15_0 shared3 (q_rest3 m c) Wv (share_five _ _ _) G hG

def reg3 : Pipeline.RegionSeg (pcfgs (F := F)) adm (pdats m) () defs₀ 𝒱₀ L lv 3 :=
  regOf m 3 winFacts₀3 block_pos3 stage_whole3 (body_obligation3 (V4 m)) (fun _ _ => rfl) (fun _ _ => trivial) (fun _ _ => rfl)
    (W4 m) (W5 m) (fun c => iprop(Tₙ m c ∗ ∃ W, owes (c : Thread nD τ) (0 : CellTallies nD τ sig Unit) W)) (fun _ => sep_assoc.2)
    (held3 m) (A_eq3 (V4 m)) (arrAt_final3 m) fun c => off_arrays [main_v17] (W5_of m c) (by decide)

end Cert.Kernel.Hand

end
-- ==== Proof.KB.Run.lean ====
import proofs.«103105_g78589311582291_cont_9to1_m_296_15_alg».proof.Proof.KB.Vals
import proofs.«103105_g78589311582291_cont_9to1_m_296_15_alg».proof.Proof.KB.Regs
import proofs.«103105_g78589311582291_cont_9to1_m_296_15_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

abbrev segs : List (Pipeline.Seg (pcfgs (F := F)) adm (pdats m) () defs₀ 𝒱₀ L lv) :=
  [ .host (Gen.seg0 m 𝒱₀ L lv fun _ => R),
    .region (reg0 m),
    .region (reg1 m),
    .region (reg2 m),
    .region (reg3 m) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      r.2.mem ((c.tc : Thread nD τ).loc main_v17) = (dat3 (V4 m) c).arrAt 10 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by

      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by

      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by

      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      have k := fun (r : Ref sig .tc) (hu : ¬ (Proc.devRef .tc r : DevRef τ sig).isScoped) hr =>
        (h c _ (mem_uc r hu)).trans (W5_kept m c r hr)
      ⟨(h c _ (mem_uc main_v17 (by decide))).trans (W5_main_v17 m c),
       k main_arg0 (by decide) (by decide), k main_arg1 (by decide) (by decide), k main_arg2 (by decide) (by decide),
       k main_arg3 (by decide) (by decide), k main_arg4 (by decide) (by decide), k main_arg5 (by decide) (by decide),
       k main_arg6 (by decide) (by decide), k main_arg7 (by decide) (by decide), k main_arg8 (by decide) (by decide),
       k main_arg9 (by decide) (by decide), k main_arg10 (by decide) (by decide), k main_arg11 (by decide) (by decide),
       k main_arg12 (by decide) (by decide)⟩)

end Cert.Kernel.Hand

end
-- ==== Proof.KI.Body0.lean ====
import proofs.«103105_g78589311582291_cont_9to1_m_296_15_alg».proof.Proof.Gen.KernelIdeal.Launch
import proofs.«103105_g78589311582291_cont_9to1_m_296_15_alg».proof.Proof.Gen.KernelIdeal.Skeleton
import proofs.«103105_g78589311582291_cont_9to1_m_296_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0Rows : Rect S400x128 := Rect.unit (s := S400x128) ![0, 0] S400x128.size inb_S400x128_S400x128_0_0
abbrev r0Mat : Rect S128x128 := Rect.unit (s := S128x128) ![0, 0] S128x128.size inb_S128x128_S128x128_0_0
abbrev r0Bias : Rect S1x128 := Rect.unit (s := S1x128) ![0, 0] S1x128.size inb_S1x128_S1x128_0_0

def out0_5 (x : Vec F S400x128 .f32) (w1 : Vec F S128x128 .f32) (b1 : Vec F S1x128 .f32) : Vec F S400x128 .f32 :=
  View.canon [⟨r0Rows, k0_pay1 (View.ld x r0Rows) (View.ld w1 r0Mat) (View.ld b1 r0Bias)⟩]

def out0_6 (x : Vec F S400x128 .f32) (w1 : Vec F S128x128 .f32) (b1 : Vec F S1x128 .f32)
    (w2 : Vec F S128x128 .f32) (b2 : Vec F S1x128 .f32) : Vec F S400x128 .bf16 :=
  View.canon [⟨r0Rows, k0_pay2 (View.ld x r0Rows) (View.ld w1 r0Mat) (View.ld b1 r0Bias) (View.ld w2 r0Mat) (View.ld b2 r0Bias)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) :
    (dat0 V c).after 5 t = out0_5 (iblk0 V c 0 t) (iblk0 V c 1 t) (iblk0 V c 2 t) := rfl
theorem after0_6 (c : Dev nD) (t : Fin cfg0.N) :
    (dat0 V c).after 6 t = out0_6 (iblk0 V c 0 t) (iblk0 V c 1 t) (iblk0 V c 2 t) (iblk0 V c 3 t) (iblk0 V c 4 t) := rfl

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) := by
  refine ⟨?_, ?_, ?_, ?_, ?_⟩ <;> exact Dat.before_in_eq_fetched _ _ rfl (fun _ => rfl) (fun _ _ _ => rfl) (fun _ => rfl) t

set_option maxHeartbeats 1000000 in
-- One store covers each output block whole, so what the block held before does not matter.
theorem sound_kernel0 (c : Dev nD) (E : Set ℕ) (i : grid0.Coords)
    (arg1 : Memref sig .tc .vmem S400x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S400x128 .f32) (harg6 : arg6.IsWhole)
    (arg7 : Memref sig .tc .vmem S400x128 .bf16) (harg7 : arg7.IsWhole)
    (x : Vec F S400x128 .f32) (w1 : Vec F S128x128 .f32) (b1 : Vec F S1x128 .f32)
    (w2 : Vec F S128x128 .f32) (b2 : Vec F S1x128 .f32) (d6 : Vec F S400x128 .f32) (d7 : Vec F S400x128 .bf16)
    (K : PUnit → sProp (MT nD τ sig Unit (Elt F) ℕ (UR sig nD τ) ℕ)) :
    iprop(owns c.tc arg1 fullShare x ∗ owns c.tc arg2 fullShare w1 ∗ owns c.tc arg3 fullShare b1
        ∗ owns c.tc arg4 fullShare w2 ∗ owns c.tc arg5 fullShare b2
        ∗ owns c.tc arg6 fullShare d6 ∗ owns c.tc arg7 fullShare d7
        ∗ (iprop(owns c.tc arg1 fullShare x ∗ owns c.tc arg2 fullShare w1 ∗ owns c.tc arg3 fullShare b1
            ∗ owns c.tc arg4 fullShare w2 ∗ owns c.tc arg5 fullShare b2
            ∗ owns c.tc arg6 fullShare (out0_5 x w1 b1)
            ∗ owns c.tc arg7 fullShare (out0_6 x w1 b1 w2 b2)) -∗ K ⟨⟩))
      ⊢ wp frame (wpE defs₀ Variants.none c none) E
          (cc0__prep_body i arg1 harg1 arg2 harg2 arg3 harg3 arg4 harg4 arg5 harg5 arg6 harg6 arg7 harg7) K := by
  simp only [cc0__prep_body_eq_skeleton]; unfold cc0__prep_body_skel owns
  iintro ⟨⟨%f1, %hf1, H1⟩, ⟨%f2, %hf2, H2⟩, ⟨%f3, %hf3, H3⟩, ⟨%f4, %hf4, H4⟩, ⟨%f5, %hf5, H5⟩,
    ⟨%f6, -, H6⟩, ⟨%f7, -, H7⟩, Hk⟩
  subst hf1 hf2 hf3 hf4 hf5
  sl_exec
  sl_step
  iapply Hk
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]
  · iexists _; iframe H6; ipureintro
    exact View.read_writes_eq_canon _ _ _ (View.cover_of_tiled _ S400x128.size (by rfl))
  iexists _; iframe H7; ipureintro
  exact View.read_writes_eq_canon _ _ _ (View.cover_of_tiled _ S400x128.size (by rfl))

theorem body_obligation0 (c : Dev nD) : BodyObligation (dat0 (F := F) V c) (defs₀ (F := F)) Variants.none () Set.univ := fun t => by
  rw [bigSep_W0, bigSep_W0]
  simp only [before0]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ)
  iframe
  iintro H
  iframe

end Cert.KernelIdeal.Hand

end
-- ==== Proof.KI.Body1.lean ====
import proofs.«103105_g78589311582291_cont_9to1_m_296_15_alg».proof.Proof.Gen.KernelIdeal.Launch
import proofs.«103105_g78589311582291_cont_9to1_m_296_15_alg».proof.Proof.Gen.KernelIdeal.Skeleton
import proofs.«103105_g78589311582291_cont_9to1_m_296_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rSlab : Rect S200x10000 := Rect.unit (s := S200x10000) ![0, 0] S200x10000.size inb_S200x10000_S200x10000_0_0
abbrev rTable : Rect S10000x128 := Rect.unit (s := S10000x128) ![0, 0] S10000x128.size inb_S10000x128_S10000x128_0_0
abbrev rFeat : Rect S400x128 := Rect.unit (s := S400x128) ![0, 0] S400x128.size inb_S400x128_S400x128_0_0
abbrev rWeight : Rect S128x64 := Rect.unit (s := S128x64) ![0, 0] S128x64.size inb_S128x64_S128x64_0_0
abbrev rBias : Rect S1x64 := Rect.unit (s := S1x64) ![0, 0] S1x64.size inb_S1x64_S1x64_0_0
abbrev rRows : Rect S400x10000 := Rect.unit (s := S400x10000) ![0, 0] S400x10000.size inb_S400x10000_S400x10000_0_0
abbrev rHid : Rect S400x64 := Rect.unit (s := S400x64) ![0, 0] S400x64.size inb_S400x64_S400x64_0_0
abbrev rCol : Rect S400x1 := Rect.unit (s := S400x1) ![0, 0] S400x1.size inb_S400x1_S400x1_0_0

abbrev hid1 (x0 x1 : Vec F S200x10000 .f32) (x2 : Vec F S10000x128 .bf16) (x3 : Vec F S400x128 .f32)
    (x4 : Vec F S128x64 .f32) (x5 : Vec F S1x64 .f32) : FVec F S400x64 .f32 :=
  k1_pay7 (View.ld x0 rSlab) (View.ld x1 rSlab) (View.ld x2 rTable) (View.ld x3 rFeat) (View.ld x4 rWeight) (View.ld x5 rBias)

def out1_6 (x0 x1 : Vec F S200x10000 .f32) : Vec F S400x10000 .bf16 :=
  View.canon [⟨rRows, k1_pay5 (View.ld x0 rSlab) (View.ld x1 rSlab)⟩]

def out1_7 (x0 x1 : Vec F S200x10000 .f32) (x2 : Vec F S10000x128 .bf16) (x3 : Vec F S400x128 .f32)
    (x4 : Vec F S128x64 .f32) (x5 : Vec F S1x64 .f32) : Vec F S400x64 .f32 :=
  View.canon [⟨rHid, hid1 x0 x1 x2 x3 x4 x5⟩]

def out1_8 (x0 x1 : Vec F S200x10000 .f32) (x2 : Vec F S10000x128 .bf16) (x3 : Vec F S400x128 .f32)
    (x4 : Vec F S128x64 .f32) (x5 : Vec F S1x64 .f32) : Vec F S400x64 .bf16 :=
  View.canon [⟨rHid, k1_pay1 (hid1 x0 x1 x2 x3 x4 x5)⟩]

def out1_9 (x0 x1 : Vec F S200x10000 .f32) (x2 : Vec F S10000x128 .bf16) : Vec F S400x1 .f32 :=
  View.canon [⟨rCol, k1_pay6 (View.ld x0 rSlab) (View.ld x1 rSlab) (View.ld x2 rTable)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t)
  Φ _ := Pipeline.ΦA spec1 c
  q := fun
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t =
    out1_8 (iblk1 V c 0 t) (iblk1 V c 1 t) (iblk1 V c 2 t) (iblk1 V c 3 t) (iblk1 V c 4 t) (iblk1 V c 5 t) := by dsimp only [dat1]
theorem after1_9 (c : Dev nD) (t : Fin cfg1.N) : (dat1 V c).after 9 t = out1_9 (iblk1 V c 0 t) (iblk1 V c 1 t) (iblk1 V c 2 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> exact Dat.before_in_eq_fetched _ _ rfl (fun _ => rfl) (fun _ _ _ => rfl) (fun _ => rfl) t

set_option maxHeartbeats 4000000 in
theorem sound_kernel1 (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S400x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S400x10000 .bf16) (harg7 : arg7.IsWhole) (arg8 : Memref sig .tc .vmem S400x64 .f32) (harg8 : arg8.IsWhole)
    (arg9 : Memref sig .tc .vmem S400x64 .bf16) (harg9 : arg9.IsWhole) (arg10 : Memref sig .tc .vmem S400x1 .f32) (harg10 : arg10.IsWhole)
    (x0 x1 : Vec F S200x10000 .f32) (x2 : Vec F S10000x128 .bf16) (x3 : Vec F S400x128 .f32) (x4 : Vec F S128x64 .f32) (x5 : Vec F S1x64 .f32)
    (d6 : Vec F S400x10000 .bf16) (d7 : Vec F S400x64 .f32) (d8 : Vec F S400x64 .bf16) (d9 : Vec F S400x1 .f32) (K : PUnit → sProp (MT nD τ sig Unit (Elt F) ℕ (UR sig nD τ) ℕ)) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare d6 ∗ owns c.tc arg8 fullShare d7 ∗ owns c.tc arg9 fullShare d8 ∗ owns c.tc arg10 fullShare d9
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare (out1_6 x0 x1)
            ∗ owns c.tc arg8 fullShare (out1_7 x0 x1 x2 x3 x4 x5)
            ∗ owns c.tc arg9 fullShare (out1_8 x0 x1 x2 x3 x4 x5)
            ∗ owns c.tc arg10 fullShare (out1_9 x0 x1 x2)) -∗ K ⟨⟩))
      ⊢ wp frame (wpE defs₀ Variants.none c none) E
          (cc1__p1_body i arg1 harg1 arg2 harg2 arg3 harg3 arg4 harg4 arg5 harg5 arg6 harg6 arg7 harg7 arg8 harg8 arg9 harg9 arg10 harg10) K := by
  simp only [cc1__p1_body_eq_skeleton]; unfold cc1__p1_body_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, -, H6⟩, ⟨%f7, -, H7⟩, ⟨%f8, -, H8⟩, ⟨%f9, -, H9⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]
  · iexists _; iframe H6; ipureintro
    exact View.read_writes_eq_canon _ _ _ (View.cover_of_tiled _ S400x10000.size (by rfl))
  isplitl [H7]
  · iexists _; iframe H7; ipureintro
    exact View.read_writes_eq_canon _ _ _ (View.cover_of_tiled _ S400x64.size (by rfl))
  isplitl [H8]
  · iexists _; iframe H8; ipureintro; sl_unfold_run_names
    exact View.read_writes_eq_canon _ _ _ (View.cover_of_tiled _ S400x64.size (by rfl))
  iexists _; iframe H9; ipureintro
  exact View.read_writes_eq_canon _ _ _ (View.cover_of_tiled _ S400x1.size (by rfl))

theorem body_obligation1 (c : Dev nD) : BodyObligation (dat1 (F := F) V c) (defs₀ (F := F)) Variants.none () Set.univ := fun t => by
  rw [bigSep_W1, bigSep_W1]
  simp only [before1]
  rw [show (dat1 V c).owesAt () t.succ = (dat1 V c).owesAt () t.castSucc from rfl]
  dsimp only [dat1]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ)
  iframe
  iintro H
  iframe

end Cert.KernelIdeal.Hand

end
-- ==== Proof.KI.Body2.lean ====
import proofs.«103105_g78589311582291_cont_9to1_m_296_15_alg».proof.Proof.Gen.KernelIdeal.Launch
import proofs.«103105_g78589311582291_cont_9to1_m_296_15_alg».proof.Proof.Gen.KernelIdeal.Skeleton
import proofs.«103105_g78589311582291_cont_9to1_m_296_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2Slab : Rect S200x10000 := Rect.unit (s := S200x10000) ![0, 0] S200x10000.size inb_S200x10000_S200x10000_0_0
abbrev rTall : Rect S10000x64 := Rect.unit (s := S10000x64) ![0, 0] S10000x64.size inb_S10000x64_S10000x64_0_0
abbrev rRows64 : Rect S1000x64 := Rect.unit (s := S1000x64) ![0, 0] S1000x64.size inb_S1000x64_S1000x64_0_0
abbrev r2Col : Rect S1000x1 := Rect.unit (s := S1000x1) ![0, 0] S1000x1.size inb_S1000x1_S1000x1_0_0
abbrev rSq : Rect S64x128 := Rect.unit (s := S64x128) ![0, 0] S64x128.size inb_S64x128_S64x128_0_0
abbrev rRow : Rect S1x128 := Rect.unit (s := S1x128) ![0, 0] S1x128.size inb_S1x128_S1x128_0_0
abbrev rProj : Rect S128x40 := Rect.unit (s := S128x40) ![0, 0] S128x40.size inb_S128x40_S128x40_0_0
abbrev rOut128 : Rect S1000x128 := Rect.unit (s := S1000x128) ![0, 0] S1000x128.size inb_S1000x128_S1000x128_0_0
abbrev rOut40 : Rect S1000x40 := Rect.unit (s := S1000x40) ![0, 0] S1000x40.size inb_S1000x40_S1000x40_0_0

def out2_12 (x0 x1 x2 x3 x4 : Vec F S200x10000 .bf16) (x5 : Vec F S10000x64 .bf16) (x6 : Vec F S1000x64 .f32) (x7 : Vec F S1000x1 .f32) (x8 x9 : Vec F S64x128 .f32) (x10 : Vec F S1x128 .f32) : Vec F S1000x128 .f32 :=
  View.canon [⟨rOut128, k2_pay1 (k2_pay3 (View.ld x5 rTall) (View.ld x0 r2Slab) (View.ld x1 r2Slab) (View.ld x2 r2Slab) (View.ld x3 r2Slab) (View.ld x4 r2Slab) (View.ld x7 r2Col) (View.ld x6 rRows64) (View.ld x8 rSq) (View.ld x9 rSq)) (View.ld x10 rRow)⟩]

def out2_13 (x0 x1 x2 x3 x4 : Vec F S200x10000 .bf16) (x5 : Vec F S10000x64 .bf16) (x6 : Vec F S1000x64 .f32) (x7 : Vec F S1000x1 .f32) (x8 x9 : Vec F S64x128 .f32) (x10 : Vec F S1x128 .f32) (x11 : Vec F S128x40 .f32) : Vec F S1000x40 .bf16 :=
  View.canon [⟨rOut40, k2_pay2 (k2_pay3 (View.ld x5 rTall) (View.ld x0 r2Slab) (View.ld x1 r2Slab) (View.ld x2 r2Slab) (View.ld x3 r2Slab) (View.ld x4 r2Slab) (View.ld x7 r2Col) (View.ld x6 rRows64) (View.ld x8 rSq) (View.ld x9 rSq)) (View.ld x10 rRow) (View.ld x11 rProj)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | _ => fullShare
  owed _ := 0

theorem A_eq2 (c : Dev nD) (w : Fin cfg2.W) : (dat2 V c).A w = V c (Pipeline.arrRef spec2 w) := by
  dsimp only [dat2]

theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

theorem before2 (c : Dev nD) (t : Fin cfg2.N) : ∀ (w : Fin cfg2.W), w.val < 12 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d
  | ⟨8, _⟩, _, d | ⟨9, _⟩, _, d | ⟨10, _⟩, _, d | ⟨11, _⟩, _, d =>
    ((dat2 V c).before_in_eq_fetched _ rfl (fun _ => rfl) (fun _ _ _ => rfl) (fun _ => rfl) t d).trans rfl
  | ⟨_ + 12, _⟩, h, _ => absurd h (Nat.not_lt.mpr (Nat.le_add_left _ _))

theorem sound_kernel2 (c : Dev nD) (E : Set ℕ) (i : grid2.Coords) {a1 a2 a3 a4 a5 : Memref sig .tc .vmem S200x10000 .bf16} {a6 : Memref sig .tc .vmem S10000x64 .bf16} {a7 : Memref sig .tc .vmem S1000x64 .f32} {a8 : Memref sig .tc .vmem S1000x1 .f32} {a9 a10 : Memref sig .tc .vmem S64x128 .f32} {a11 : Memref sig .tc .vmem S1x128 .f32} {a12 : Memref sig .tc .vmem S128x40 .f32} {a13 : Memref sig .tc .vmem S1000x128 .f32} {a14 : Memref sig .tc .vmem S1000x40 .bf16}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole}
    (x0 x1 x2 x3 x4 : Vec F S200x10000 .bf16) (x5 : Vec F S10000x64 .bf16) (x6 : Vec F S1000x64 .f32) (x7 : Vec F S1000x1 .f32) (x8 x9 : Vec F S64x128 .f32) (x10 : Vec F S1x128 .f32) (x11 : Vec F S128x40 .f32) (d12 : Vec F S1000x128 .f32) (d13 : Vec F S1000x40 .bf16) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ owns c.tc a11 fullShare x10 ∗ owns c.tc a12 fullShare x11
        ∗ owns c.tc a13 fullShare d12 ∗ owns c.tc a14 fullShare d13
        ∗ (iprop(owns c.tc a13 fullShare (out2_12 x0 x1 x2 x3 x4 x5 x6 x7 x8 x9 x10) ∗ owns c.tc a14 fullShare (out2_13 x0 x1 x2 x3 x4 x5 x6 x7 x8 x9 x10 x11)
            ∗ owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ owns c.tc a11 fullShare x10 ∗ owns c.tc a12 fullShare x11) -∗ K ⟨⟩))
      ⊢ wp frame (wpE (defs₀ (F := F)) Variants.none c none) E (cc2__p2_body i a1 h1 a2 h2 a3 h3 a4 h4 a5 h5 a6 h6 a7 h7 a8 h8 a9 h9 a10 h10 a11 h11 a12 h12 a13 h13 a14 h14) K := by
  simp only [cc2__p2_body_eq_skeleton]; unfold cc2__p2_body_skel
  simp only [k2_part1_eq_skeleton]; unfold k2_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, -, H12⟩, ⟨%f13, -, H13⟩, Hk⟩
  subst e0 e1 e2 e3 e4 e5 e6 e7 e8 e9 e10 e11
  sl_exec
  sl_step
  iapply Hk
  isplitl [H12]
  · iexists _; isplitr
    swap; · iexact H12
    ipureintro
    exact View.read_writes_eq_canon _ _ _ (View.cover_of_tiled _ S1000x128.size (by rfl))
  isplitl [H13]
  · iexists _; isplitr
    swap; · iexact H13
    ipureintro
    exact View.read_writes_eq_canon _ _ _ (View.cover_of_tiled _ S1000x40.size (by rfl))
  sl_close

theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  simp (disch := decide) only [before2 V c t]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ (grid2.coords t))
  iframe
  iintro ⟨H12, H13, H0, H1, H2, H3, H4, H5, H6, H7, H8, H9, H10, H11⟩
  iframe

end Region2

end Cert.KernelIdeal.Hand
-- ==== Proof.KI.Body3.lean ====
import proofs.«103105_g78589311582291_cont_9to1_m_296_15_alg».proof.Proof.Gen.KernelIdeal.Launch
import proofs.«103105_g78589311582291_cont_9to1_m_296_15_alg».proof.Proof.Gen.KernelIdeal.Skeleton
import proofs.«103105_g78589311582291_cont_9to1_m_296_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_slab : Rect S200x10000 := Rect.unit (s := S200x10000) ![0, 0] S200x10000.size inb_S200x10000_S200x10000_0_0
abbrev r3_feat : Rect S10000x40 := Rect.unit (s := S10000x40) ![0, 0] S10000x40.size inb_S10000x40_S10000x40_0_0
abbrev r3_hid : Rect S1000x128 := Rect.unit (s := S1000x128) ![0, 0] S1000x128.size inb_S1000x128_S1000x128_0_0
abbrev r3_col : Rect S1000x1 := Rect.unit (s := S1000x1) ![0, 0] S1000x1.size inb_S1000x1_S1000x1_0_0
abbrev r3_wt : Rect S128x40 := Rect.unit (s := S128x40) ![0, 0] S128x40.size inb_S128x40_S128x40_0_0
abbrev r3_bias : Rect S1x40 := Rect.unit (s := S1x40) ![0, 0] S1x40.size inb_S1x40_S1x40_0_0
abbrev r3_out : Rect S1000x40 := Rect.unit (s := S1000x40) ![0, 0] S1000x40.size inb_S1000x40_S1000x40_0_0

def out3_10 (x0 x1 x2 x3 x4 : Vec F S200x10000 .bf16) (x5 : Vec F S10000x40 .bf16) (x6 : Vec F S1000x128 .f32)
    (x7 : Vec F S1000x1 .f32) (x8 : Vec F S128x40 .f32) (x9 : Vec F S1x40 .f32) : Vec F S1000x40 .f32 :=
  View.canon [⟨r3_out, k3_pay1 (View.ld x5 r3_feat) (View.ld x0 r3_slab) (View.ld x1 r3_slab) (View.ld x2 r3_slab)
    (View.ld x3 r3_slab) (View.ld x4 r3_slab) (View.ld x6 r3_hid) (View.ld x8 r3_wt) (View.ld x7 r3_col) (View.ld x9 r3_bias)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t)
        (iblk3 V c 5 t) (iblk3 V c 6 t) (iblk3 V c 7 t) (iblk3 V c 8 t) (iblk3 V c 9 t)
  Φ _ := Pipeline.ΦA spec3 c
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | _ => fullShare
  owed _ := 0

theorem A_eq3 (c : Dev nD) (w : Fin cfg3.W) : (dat3 V c).A w = V c (Pipeline.arrRef spec3 w) := by
  dsimp only [dat3]

theorem after3_10 (c : Dev nD) (t : Fin cfg3.N) : (dat3 V c).after 10 t =
    out3_10 (iblk3 V c 0 t) (iblk3 V c 1 t) (iblk3 V c 2 t) (iblk3 V c 3 t) (iblk3 V c 4 t)
      (iblk3 V c 5 t) (iblk3 V c 6 t) (iblk3 V c 7 t) (iblk3 V c 8 t) (iblk3 V c 9 t) := by dsimp only [dat3]

theorem before3 (c : Dev nD) (t : Fin cfg3.N) : ∀ (w : Fin cfg3.W), w.val < 10 → ∀ d, (dat3 V c).before w t d = (dat3 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d
  | ⟨8, _⟩, _, d | ⟨9, _⟩, _, d =>
    ((dat3 V c).before_in_eq_fetched _ rfl (fun _ => rfl) (fun _ _ _ => rfl) (fun _ => rfl) t d).trans rfl
  | ⟨_ + 10, _⟩, h, _ => absurd h (Nat.not_lt.mpr (Nat.le_add_left _ _))

theorem sound_kernel3 (c : Dev nD) (E : Set ℕ) (i : grid3.Coords) {a1 a2 a3 a4 a5 : Memref sig .tc .vmem S200x10000 .bf16} {a6 : Memref sig .tc .vmem S10000x40 .bf16} {a7 : Memref sig .tc .vmem S1000x128 .f32} {a8 : Memref sig .tc .vmem S1000x1 .f32} {a9 : Memref sig .tc .vmem S128x40 .f32} {a10 : Memref sig .tc .vmem S1x40 .f32} {a11 : Memref sig .tc .vmem S1000x40 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole}
    (x0 x1 x2 x3 x4 : Vec F S200x10000 .bf16) (x5 : Vec F S10000x40 .bf16) (x6 : Vec F S1000x128 .f32) (x7 : Vec F S1000x1 .f32) (x8 : Vec F S128x40 .f32) (x9 : Vec F S1x40 .f32) (d10 : Vec F S1000x40 .f32) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9
        ∗ owns c.tc a11 fullShare d10
        ∗ (iprop(owns c.tc a11 fullShare (out3_10 x0 x1 x2 x3 x4 x5 x6 x7 x8 x9)
            ∗ owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9) -∗ K ⟨⟩))
      ⊢ wp frame (wpE (defs₀ (F := F)) Variants.none c none) E (cc3__p3_body i a1 h1 a2 h2 a3 h3 a4 h4 a5 h5 a6 h6 a7 h7 a8 h8 a9 h9 a10 h10 a11 h11) K := by
  simp only [cc3__p3_body_eq_skeleton]; unfold cc3__p3_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, -, H10⟩, Hk⟩
  subst e0 e1 e2 e3 e4 e5 e6 e7 e8 e9
  sl_exec
  sl_step
  iapply Hk
  isplitl [H10]
  · iexists _; isplitr
    swap; · iexact H10
    ipureintro
    exact View.read_writes_eq_canon _ _ _ (View.cover_of_tiled _ S1000x40.size (by rfl))
  sl_close

theorem body_obligation3 (c : Dev nD) : BodyObligation (dat3 (F := F) V c) (defs₀ (F := F)) Variants.none () Set.univ := fun t => by
  rw [bigSep_W3, bigSep_W3, show (dat3 V c).owesAt () t.succ = (dat3 V c).owesAt () t.castSucc from rfl]
  simp (disch := decide) only [before3 V c t]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ (grid3.coords t))
  iframe
  iintro ⟨H10, H0, H1, H2, H3, H4, H5, H6, H7, H8, H9⟩
  iframe

end Region3

end Cert.KernelIdeal.Hand

end
-- ==== Proof.KI.Vals.lean ====
import proofs.«103105_g78589311582291_cont_9to1_m_296_15_alg».proof.Proof.KI.Body0
import proofs.«103105_g78589311582291_cont_9to1_m_296_15_alg».proof.Proof.KI.Body1
import proofs.«103105_g78589311582291_cont_9to1_m_296_15_alg».proof.Proof.KI.Body2
import proofs.«103105_g78589311582291_cont_9to1_m_296_15_alg».proof.Proof.KI.Body3
import proofs.«103105_g78589311582291_cont_9to1_m_296_15_alg».proof.Proof.Gen.KernelIdeal.Regions
import proofs.«103105_g78589311582291_cont_9to1_m_296_15_alg».proof.Proof.LibShared

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen Cert.Hand

variable {F : FTy → Type} [FloatOps F]
variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := fun c b => W1 m c b

def W2 (c : Dev nD) : Valuation τ sig (Elt F) :=
  Function.update (Function.update (W1 m c) main_v14_0 ((dat0 (V1 m) c).arrAt 5 cfg0.N)) main_v14_1 ((dat0 (V1 m) c).arrAt 6 cfg0.N)
abbrev V2 : (c : Dev nD) → (b : Ref sig .tc) → Buf (Elt F) ((c : Thread nD τ).loc b) := fun c b => W2 m c b

def W3 (c : Dev nD) : Valuation τ sig (Elt F) :=
  Function.update (Function.update (Function.update (Function.update (W2 m c) main_v15_0 ((dat1 (V2 m) c).arrAt 6 cfg1.N)) main_v15_1 ((dat1 (V2 m) c).arrAt 7 cfg1.N)) main_v15_2 ((dat1 (V2 m) c).arrAt 8 cfg1.N)) main_v15_3 ((dat1 (V2 m) c).arrAt 9 cfg1.N)
abbrev V3 : (c : Dev nD) → (b : Ref sig .tc) → Buf (Elt F) ((c : Thread nD τ).loc b) := fun c b => W3 m c b

def W4 (c : Dev nD) : Valuation τ sig (Elt F) :=
  Function.update (Function.update (W3 m c) main_v16_0 ((dat2 (V3 m) c).arrAt 12 cfg2.N)) main_v16_1 ((dat2 (V3 m) c).arrAt 13 cfg2.N)
abbrev V4 : (c : Dev nD) → (b : Ref sig .tc) → Buf (Elt F) ((c : Thread nD τ).loc b) := fun c b => W4 m c b

def W5 (c : Dev nD) : Valuation τ sig (Elt F) :=
  Function.update (W4 m c) main_v17 ((dat3 (V4 m) c).arrAt 10 cfg3.N)

theorem W2_main_v14_0 (c : Dev nD) : W2 m c main_v14_0 = (dat0 (V1 m) c).arrAt 5 cfg0.N := by
  unfold W2; rw [update_of_ne, Function.update_self] <;> decide
theorem W2_main_v14_1 (c : Dev nD) : W2 m c main_v14_1 = (dat0 (V1 m) c).arrAt 6 cfg0.N := by
  unfold W2; rw [Function.update_self]
theorem W2_of (c : Dev nD) (r : Ref sig .tc) (h : r ∉ ([main_v14_0, main_v14_1] : List (Ref sig .tc))) : W2 m c r = W1 m c r := by
  unfold W2; rw [update_of_ne (List.ne_of_not_mem_cons (List.not_mem_of_not_mem_cons h)), update_of_ne (List.ne_of_not_mem_cons h)]

theorem W3_main_v15_0 (c : Dev nD) : W3 m c main_v15_0 = (dat1 (V2 m) c).arrAt 6 cfg1.N := by
  unfold W3; rw [update_of_ne, update_of_ne, update_of_ne, Function.update_self] <;> decide
theorem W3_main_v15_1 (c : Dev nD) : W3 m c main_v15_1 = (dat1 (V2 m) c).arrAt 7 cfg1.N := by
  unfold W3; rw [update_of_ne, update_of_ne, Function.update_self] <;> decide
theorem W3_main_v15_2 (c : Dev nD) : W3 m c main_v15_2 = (dat1 (V2 m) c).arrAt 8 cfg1.N := by
  unfold W3; rw [update_of_ne, Function.update_self] <;> decide
theorem W3_main_v15_3 (c : Dev nD) : W3 m c main_v15_3 = (dat1 (V2 m) c).arrAt 9 cfg1.N := by
  unfold W3; rw [Function.update_self]
theorem W3_of (c : Dev nD) (r : Ref sig .tc) (h : r ∉ ([main_v15_0, main_v15_1, main_v15_2, main_v15_3] : List (Ref sig .tc))) : W3 m c r = W2 m c r := by
  have h1 := List.not_mem_of_not_mem_cons h
  have h2 := List.not_mem_of_not_mem_cons h1
  unfold W3; rw [update_of_ne (List.ne_of_not_mem_cons (List.not_mem_of_not_mem_cons h2)), update_of_ne (List.ne_of_not_mem_cons h2),
    update_of_ne (List.ne_of_not_mem_cons h1), update_of_ne (List.ne_of_not_mem_cons h)]

theorem W4_main_v16_0 (c : Dev nD) : W4 m c main_v16_0 = (dat2 (V3 m) c).arrAt 12 cfg2.N := by
  unfold W4; rw [update_of_ne, Function.update_self] <;> decide
theorem W4_main_v16_1 (c : Dev nD) : W4 m c main_v16_1 = (dat2 (V3 m) c).arrAt 13 cfg2.N := by
  unfold W4; rw [Function.update_self]
theorem W4_of (c : Dev nD) (r : Ref sig .tc) (h : r ∉ ([main_v16_0, main_v16_1] : List (Ref sig .tc))) : W4 m c r = W3 m c r := by
  unfold W4; rw [update_of_ne (List.ne_of_not_mem_cons (List.not_mem_of_not_mem_cons h)), update_of_ne (List.ne_of_not_mem_cons h)]

theorem W5_main_v17 (c : Dev nD) : W5 m c main_v17 = (dat3 (V4 m) c).arrAt 10 cfg3.N := by
  unfold W5; rw [Function.update_self]
theorem W5_of (c : Dev nD) (r : Ref sig .tc) (h : r ∉ ([main_v17] : List (Ref sig .tc))) : W5 m c r = W4 m c r := by
  unfold W5; rw [update_of_ne (List.ne_of_not_mem_cons h)]

-- An array that neither the host operations nor any region writes reaches the end as launched.
theorem W5_kept (c : Dev nD) (r : Ref sig .tc)
    (h : r ∉ ([main_v17] : List (Ref sig .tc)) ∧ r ∉ ([main_v16_0, main_v16_1] : List (Ref sig .tc))
      ∧ r ∉ ([main_v15_0, main_v15_1, main_v15_2, main_v15_3] : List (Ref sig .tc)) ∧ r ∉ ([main_v14_0, main_v14_1] : List (Ref sig .tc)) ∧ r ∉ hostOps0_W) :
    W5 m c r = m ((c : Thread nD τ).loc r) :=
  (W5_of m c r h.1).trans <| (W4_of m c r h.2.1).trans <| (W3_of m c r h.2.2.1).trans <| (W2_of m c r h.2.2.2.1).trans <| Gen.V1_of m c r h.2.2.2.2

end Cert.KernelIdeal.Hand

end
-- ==== Proof.KI.Shared.lean ====
import proofs.«103105_g78589311582291_cont_9to1_m_296_15_alg».proof.Proof.Gen.KernelIdeal.Launch
import proofs.«103105_g78589311582291_cont_9to1_m_296_15_alg».proof.Proof.LibShared

namespace Cert.KernelIdeal.Hand

open Idealize.ShloMosaic Idealize.ShloMosaic.TcCoe
open Idealize.ShloMosaic.Pipeline (arrRef)
open Cert.KernelIdeal Cert.KernelIdeal.Gen Cert.Hand

/-- The first region's windows lie on buffers of their own; the second reads the 10000 x 10000 argument through two windows, the third and fourth one intermediate through five. -/
theorem shared0 : SharedOn cfg0 [0] (arrRef spec0 0) := by decide
theorem shared1 : SharedOn cfg1 [0, 1] main_arg1 := by decide
theorem shared2 : SharedOn cfg2 [0, 1, 2, 3, 4] main_v15_0 := by decide
theorem shared3 : SharedOn cfg3 [0, 1, 2, 3, 4] main_v15_0 := by decide

end Cert.KernelIdeal.Hand
-- ==== Proof.KI.Regs.lean ====
import proofs.«103105_g78589311582291_cont_9to1_m_296_15_alg».proof.Proof.KI.Body0
import proofs.«103105_g78589311582291_cont_9to1_m_296_15_alg».proof.Proof.KI.Body1
import proofs.«103105_g78589311582291_cont_9to1_m_296_15_alg».proof.Proof.KI.Body2
import proofs.«103105_g78589311582291_cont_9to1_m_296_15_alg».proof.Proof.KI.Body3
import proofs.«103105_g78589311582291_cont_9to1_m_296_15_alg».proof.Proof.KI.Shared
import proofs.«103105_g78589311582291_cont_9to1_m_296_15_alg».proof.Proof.KI.Vals

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRef)
open Cert.KernelIdeal Cert.KernelIdeal.Gen Cert.Hand

variable {F : FTy → Type} [FloatOps F]

local notation "𝕄" => MT nD τ sig Unit (Elt F) ℕ (UR sig nD τ) ℕ

variable (m : (ℓ : Loc nD τ sig) → Buf (Elt F) ℓ)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c

abbrev 𝒱₀ : Variants := Variants.none
abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev Tₙ (c : Dev nD) : sProp 𝕄 :=
  iprop(StableHlo.held (c : Thread nD τ) (Pipeline.ucRefs τ sig) (W5 m c) ∗ ∃ r, prngReg c r)

abbrev heldAt (W : Dev nD → Valuation τ sig (Elt F)) (c : Dev nD) : sProp 𝕄 :=
  iprop(StableHlo.held (c : Thread nD τ) (Pipeline.ucRefs τ sig) (W c) ∗ R c)

abbrev restAt (p : Fin 4) (W : Dev nD → Valuation τ sig (Elt F)) (c : Dev nD) : sProp 𝕄 :=
  Pipeline.unscopedRest (Ix := Unit) (Name := ℕ) (U := UR sig nD τ) (Lvl := ℕ) (cfgs p).spec c (atTc c (W c))

/-- At every valuation the unscoped buffers are region p's arrays, at what the valuation has there, and the rest. -/
abbrev HeldEq (p : Fin 4) : Prop :=
  ∀ (c : Dev nD) (Wv : Valuation τ sig (Elt F)) (G : (w : Fin (cfgs p).W) → Buf (Elt F) (((cfgs p).win w).arr.view.loc (c : Thread nD τ))),
    (∀ w, G w = atTc c Wv (arrRef (cfgs p).spec w)) → (StableHlo.held (c : Thread nD τ) (Pipeline.ucRefs τ sig) Wv : sProp 𝕄)
      = iprop((pdats m p c).arrays G ∗ Pipeline.unscopedRest (cfgs p).spec c (atTc c Wv))

set_option backward.isDefEq.respectTransparency.types false in
/-- A region entered with every unscoped buffer held at Wa and left with them at Wb, where Wb is Wa with the final arrays put in. -/
def regOf (p : Fin 4) (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pdats m p c) (defs₀ (F := F)) Variants.none () Set.univ)
    (howed : ∀ c t, (pdats m p c).owed t = 0) (hrec : ∀ c x, x ∈ (pdats m p c).recorded 0)
    (hΦ : ∀ c t, (pdats m p c).Φ t = Pipeline.ΦA (cfgs p).spec c)
    (Wa Wb : Dev nD → Valuation τ sig (Elt F)) (post : Dev nD → sProp 𝕄) (hpost : ∀ c, heldAt Wb c ⊢ post c)
    (held : HeldEq m p) (hA : ∀ c w, (pdats m p c).arrAt w 0 = atTc c (Wa c) (arrRef (cfgs p).spec w))
    (hfin : ∀ c w, (pdats m p c).arrAt w (cfgs p).N = atTc c (Wb c) (arrRef (cfgs p).spec w))
    (hoff : ∀ c (b : Ref sig .tc), b ∉ Finset.univ.image (arrRef (cfgs p).spec) → atTc c (Wb c) b = atTc c (Wa c) b) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre := heldAt Wa
  post := post
  X c := iprop(∃ r, prngReg c r)
  Y c := iprop(∃ r, prngReg c r)
  Z := restAt p Wa
  hentry c := by
    have h := seg_entry c (X := iprop(∃ r, prngReg c r)) (E := Pipeline.ownSems0 (fun k : PEmpty => k.elim) c) (Lv := levAts L lv)
      (T := Pipeline.prefHeld (pcfgs (F := F) p).pre c (fun _ => fullShare) (adm p).1) (B := (pdats m p c).bound () 0) (O := 0) (Entails.of_eq (held c _ _ (hA c)))
      (by unfold Pipeline.prefHeld; rw [show (Finset.univ : Finset (Fin 0)) = ∅ from rfl, BI.bigSep_empty]) (fun x => Or.inl (hrec c x))
    unfold Pipeline.Dat.owesAt; rw [howed c 0]; exact h
  hin c := by rw [hΦ c 0]; exact seg_in
  hout c := by rw [hΦ c, Pipeline.ownSems0_none]; exact seg_out
  hexit c := by
    unfold Pipeline.Dat.owesAt; rw [howed c]
    refine seg_exit c ?_ (hpost c)
    rw [show restAt p Wa c = restAt p Wb c from unscopedRest_congr (hoff c)]
    exact Entails.of_eq (held c _ _ (hfin c)).symm

theorem arrAt_final0 (c : Dev nD) : ∀ w, (dat0 (V1 m) c).arrAt w cfg0.N = atTc c (W2 m c) (arrRef spec0 w) :=
  arrAt_final (dat0 (V1 m) c) (A_eq0 (V1 m) c) [main_v14_0, main_v14_1] (W2_of m c) (by decide) fun w h => by
    rcases (by decide : ∀ w : Fin cfg0.W, (cfg0.win w).isOut = true → w = 5 ∨ w = 6) w h with rfl | rfl
    exacts [(W2_main_v14_0 m c).symm, (W2_main_v14_1 m c).symm]

theorem held0 : HeldEq m 0 := fun c Wv G hG =>
  held_eq_arraysL (dat0 (V1 m) c) launch0.arr_whole launch0.win.arr_unscoped _ _ shared0 (fun _ _ => rfl) Wv rfl G hG

def reg0 : Pipeline.RegionSeg (pcfgs (F := F)) adm (pdats m) () defs₀ 𝒱₀ L lv 0 :=
  regOf m 0 launch0.win.to₀ launch0.block_pos launch0.stage_whole (body_obligation0 (V1 m)) (fun _ _ => rfl) (fun _ _ => trivial) (fun _ _ => rfl)
    (W1 m) (W2 m) _ (fun _ => .rfl) (held0 m) (A_eq0 (V1 m)) (arrAt_final0 m)
    fun c => off_arrays [main_v14_0, main_v14_1] (W2_of m c) (by decide)

theorem arrAt_final1 (c : Dev nD) : ∀ w, (dat1 (V2 m) c).arrAt w cfg1.N = atTc c (W3 m c) (arrRef spec1 w) :=
  arrAt_final (dat1 (V2 m) c) (A_eq1 (V2 m) c) [main_v15_0, main_v15_1, main_v15_2, main_v15_3] (W3_of m c) (by decide) fun w h => by
    rcases (by decide : ∀ w : Fin cfg1.W, (cfg1.win w).isOut = true → w = 6 ∨ w = 7 ∨ w = 8 ∨ w = 9) w h with rfl | rfl | rfl | rfl
    exacts [(W3_main_v15_0 m c).symm, (W3_main_v15_1 m c).symm, (W3_main_v15_2 m c).symm, (W3_main_v15_3 m c).symm]

theorem q_rest1 (c : Dev nD) (w : Fin cfg1.W) (hw : w ∉ ([0, 1] : List (Fin cfg1.W))) : (dat1 (V2 m) c).q w = fullShare := by
  rcases (by decide : ∀ w : Fin cfg1.W, w ∉ ([0, 1] : List (Fin cfg1.W)) → w = 2 ∨ w = 3 ∨ w = 4 ∨ w = 5 ∨ w = 6 ∨ w = 7 ∨ w = 8 ∨ w = 9) w hw
    with rfl | rfl | rfl | rfl | rfl | rfl | rfl | rfl <;> rfl

theorem held1 : HeldEq m 1 := fun c Wv G hG =>
  held_eq_arraysL (dat1 (V2 m) c) arr_whole1 winFacts₀1.arr_unscoped _ main_arg1 shared1 (q_rest1 m c) Wv (share_two _ _ _) G hG

def reg1 : Pipeline.RegionSeg (pcfgs (F := F)) adm (pdats m) () defs₀ 𝒱₀ L lv 1 :=
  regOf m 1 winFacts₀1 block_pos1 stage_whole1 (body_obligation1 (V2 m)) (fun _ _ => rfl) (fun _ _ => trivial) (fun _ _ => rfl)
    (W2 m) (W3 m) _ (fun _ => .rfl)
    (held1 m) (A_eq1 (V2 m)) (arrAt_final1 m) fun c => off_arrays [main_v15_0, main_v15_1, main_v15_2, main_v15_3] (W3_of m c) (by decide)

theorem arrAt_final2 (c : Dev nD) : ∀ w, (dat2 (V3 m) c).arrAt w cfg2.N = atTc c (W4 m c) (arrRef spec2 w) :=
  arrAt_final (dat2 (V3 m) c) (A_eq2 (V3 m) c) [main_v16_0, main_v16_1] (W4_of m c) (by decide) fun w h => by
    rcases (by decide : ∀ w : Fin cfg2.W, (cfg2.win w).isOut = true → w = 12 ∨ w = 13) w h with rfl | rfl
    exacts [(W4_main_v16_0 m c).symm, (W4_main_v16_1 m c).symm]

theorem q_rest2 (c : Dev nD) (w : Fin cfg2.W) (hw : w ∉ ([0, 1, 2, 3, 4] : List (Fin cfg2.W))) : (dat2 (V3 m) c).q w = fullShare := by
  rcases (by decide : ∀ w : Fin cfg2.W, w ∉ ([0, 1, 2, 3, 4] : List (Fin cfg2.W)) → w = 5 ∨ w = 6 ∨ w = 7 ∨ w = 8 ∨ w = 9 ∨ w = 10 ∨ w = 11 ∨ w = 12 ∨ w = 13) w hw
    with rfl | rfl | rfl | rfl | rfl | rfl | rfl | rfl | rfl <;> rfl

theorem held2 : HeldEq m 2 := fun c Wv G hG =>
  held_eq_arraysL (dat2 (V3 m) c) arr_whole2 winFacts₀2.arr_unscoped _ main_v15_0 shared2 (q_rest2 m c) Wv (share_five _ _ _) G hG

def reg2 : Pipeline.RegionSeg (pcfgs (F := F)) adm (pdats m) () defs₀ 𝒱₀ L lv 2 :=
  regOf m 2 winFacts₀2 block_pos2 stage_whole2 (body_obligation2 (V3 m)) (fun _ _ => rfl) (fun _ _ => trivial) (fun _ _ => rfl)
    (W3 m) (W4 m) _ (fun _ => .rfl)
    (held2 m) (A_eq2 (V3 m)) (arrAt_final2 m) fun c => off_arrays [main_v16_0, main_v16_1] (W4_of m c) (by decide)

theorem arrAt_final3 (c : Dev nD) : ∀ w, (dat3 (V4 m) c).arrAt w cfg3.N = atTc c (W5 m c) (arrRef spec3 w) :=
  arrAt_final (dat3 (V4 m) c) (A_eq3 (V4 m) c) [main_v17] (W5_of m c) (by decide) fun w h => by
    rcases (by decide : ∀ w : Fin cfg3.W, (cfg3.win w).isOut = true → w = 10) w h with rfl
    exacts [(W5_main_v17 m c).symm]

theorem q_rest3 (c : Dev nD) (w : Fin cfg3.W) (hw : w ∉ ([0, 1, 2, 3, 4] : List (Fin cfg3.W))) : (dat3 (V4 m) c).q w = fullShare := by
  rcases (by decide : ∀ w : Fin cfg3.W, w ∉ ([0, 1, 2, 3, 4] : List (Fin cfg3.W)) → w = 5 ∨ w = 6 ∨ w = 7 ∨ w = 8 ∨ w = 9 ∨ w = 10) w hw
    with rfl | rfl | rfl | rfl | rfl | rfl <;> rfl

theorem held3 : HeldEq m 3 := fun c Wv G hG =>
  held_eq_arraysL (dat3 (V4 m) c) arr_whole3 winFacts₀3.arr_unscoped _ main_v15_0 shared3 (q_rest3 m c) Wv (share_five _ _ _) G hG

def reg3 : Pipeline.RegionSeg (pcfgs (F := F)) adm (pdats m) () defs₀ 𝒱₀ L lv 3 :=
  regOf m 3 winFacts₀3 block_pos3 stage_whole3 (body_obligation3 (V4 m)) (fun _ _ => rfl) (fun _ _ => trivial) (fun _ _ => rfl)
    (W4 m) (W5 m) (fun c => iprop(Tₙ m c ∗ ∃ W, owes (c : Thread nD τ) (0 : CellTallies nD τ sig Unit) W)) (fun _ => sep_assoc.2)
    (held3 m) (A_eq3 (V4 m)) (arrAt_final3 m) fun c => off_arrays [main_v17] (W5_of m c) (by decide)

end Cert.KernelIdeal.Hand

end
-- ==== Proof.KI.Run.lean ====
import proofs.«103105_g78589311582291_cont_9to1_m_296_15_alg».proof.Proof.KI.Vals
import proofs.«103105_g78589311582291_cont_9to1_m_296_15_alg».proof.Proof.KI.Regs
import proofs.«103105_g78589311582291_cont_9to1_m_296_15_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

abbrev segs : List (Pipeline.Seg (pcfgs (F := F)) adm (pdats m) () defs₀ 𝒱₀ L lv) :=
  [ .host (Gen.seg0 m 𝒱₀ L lv fun _ => R),
    .region (reg0 m),
    .region (reg1 m),
    .region (reg2 m),
    .region (reg3 m) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      r.2.mem ((c.tc : Thread nD τ).loc main_v17) = (dat3 (V4 m) c).arrAt 10 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by

      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by

      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by

      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      have k := fun (r : Ref sig .tc) (hu : ¬ (Proc.devRef .tc r : DevRef τ sig).isScoped) hr =>
        (h c _ (mem_uc r hu)).trans (W5_kept m c r hr)
      ⟨(h c _ (mem_uc main_v17 (by decide))).trans (W5_main_v17 m c),
       k main_arg0 (by decide) (by decide), k main_arg1 (by decide) (by decide), k main_arg2 (by decide) (by decide),
       k main_arg3 (by decide) (by decide), k main_arg4 (by decide) (by decide), k main_arg5 (by decide) (by decide),
       k main_arg6 (by decide) (by decide), k main_arg7 (by decide) (by decide), k main_arg8 (by decide) (by decide),
       k main_arg9 (by decide) (by decide), k main_arg10 (by decide) (by decide), k main_arg11 (by decide) (by decide),
       k main_arg12 (by decide) (by decide)⟩)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Mat (n m : ℕ) : Type := (⟨2, ![n, m]⟩ : Shape).Idx → EReal

abbrev Row (m : ℕ) : Type := (⟨1, ![m]⟩ : Shape).Idx → EReal

def zero : EReal := Ideal.ofBits .f32 0x00000000#32

def one : EReal := Ideal.ofBits .f32 0x3F800000#32

def floor : EReal := Ideal.ofBits .f32 0x2B8CBCCC#32

def mm {n k m : ℕ} (A : Mat n k) (B : Mat k m) : Mat n m :=
  fun j => ∑ l : Fin k, A (ix2 (n0 := n) (j 0) l) * B (ix2 (n1 := m) l (j 1))

def add {n m : ℕ} (A B : Mat n m) : Mat n m := fun j => A j + B j

def addRow {n m : ℕ} (A : Mat n m) (b : Mat 1 m) : Mat n m := fun j => A j + b (ix2 (0 : Fin 1) (n1 := m) (j 1))

def addVec {n m : ℕ} (A : Mat n m) (b : Row m) : Mat n m := fun j => A j + b (ix1 (n := m) (j 1))

def relu {n m : ℕ} (A : Mat n m) : Mat n m := fun j => max (A j) zero

def scaleRows {n m : ℕ} (A : Mat n m) (s : Mat n 1) : Mat n m := fun j => A j * s (ix2 (n0 := n) (j 0) (0 : Fin 1))

def divRows {n m : ℕ} (A : Mat n m) (d : Mat n 1) : Mat n m := fun j => Ideal.div (A j) (d (ix2 (n0 := n) (j 0) (0 : Fin 1)))

def cols {n m : ℕ} (m' : ℕ) (h : m' ≤ m) (A : Mat n m) : Mat n m' := fun j => A (ix2 (n0 := n) (j 0) (Fin.castLE h (j 1)))

def col {n m : ℕ} (c : Fin m) (A : Mat n m) : Mat n 1 := fun j => A (ix2 (n0 := n) (j 0) c)

def rowOf {m : ℕ} (b : Row m) : Mat 1 m := fun j => b (ix1 (n := m) (j 1))

def padCols {k m : ℕ} (m' : ℕ) (A : Mat k m) : Mat k m' :=
  fun j => if h : (j 1).val < m then A (ix2 (n0 := k) (j 0) (⟨(j 1).val, h⟩ : Fin m)) else zero

def unitRow {m : ℕ} (c : ℕ) : Mat 1 m := fun j => if (j 1).val = c then one else zero

def recipFloored {n : ℕ} (d : Mat n 1) : Mat n 1 := fun j => Ideal.div one (max (d j) floor)

section Fused
variable {N : ℕ}

def f_h0 (x : Mat N 128) (Wm : Mat 128 128) (bm : Mat 1 128) : Mat N 128 := addRow (mm x Wm) bm

def f_gp (h0 : Mat N 128) (Wp : Mat 128 128) (e : Mat 1 128) : Mat N 128 := addRow (mm h0 Wp) e

def f_invd (adj : Mat N N) (gp : Mat N 128) : Mat N 1 := recipFloored (col (⟨64, by decide⟩ : Fin 128) (mm adj gp))

def f_h1 (adj : Mat N N) (gp h0 : Mat N 128) (Wl1 : Mat 128 64) (b1 : Mat 1 64) : Mat N 64 :=
  relu (addRow (add (mm h0 Wl1) (scaleRows (cols 64 (by decide) (mm adj gp)) (f_invd adj gp))) b1)

def f_h2 (adj : Mat N N) (h1b h1 : Mat N 64) (invd : Mat N 1) (Wl2 Wr2 : Mat 64 128) (b2 : Mat 1 128) : Mat N 128 :=
  relu (addRow (add (mm h1 Wl2) (mm (scaleRows (mm adj h1b) invd) Wr2)) b2)

def f_g3 (h2 : Mat N 128) (W : Mat 128 40) : Mat N 40 := mm h2 W

def f_out (adj : Mat N N) (g3 : Mat N 40) (h2 : Mat N 128) (invd : Mat N 1) (Wl3 : Mat 128 40) (b3 : Mat 1 40) : Mat N 40 :=
  addRow (add (mm h2 Wl3) (scaleRows (mm adj g3) invd)) b3

-- The kernel's order of operations: the right-hand weight is applied before aggregation, the degree is read off a column of ones carried through the first aggregation, and division by the degree is multiplication by its reciprocal.
def fused (x : Mat N 128) (adj : Mat N N) (Wm : Mat 128 128) (bm : Row 128) (Wl1 Wr1 : Mat 128 64) (b1 : Row 64)
    (Wl2 Wr2 : Mat 64 128) (b2 : Row 128) (Wl3 Wr3 : Mat 128 40) (b3 : Row 40) : Mat N 40 :=
  let h0 := f_h0 x Wm (rowOf bm)
  let gp := f_gp h0 (padCols 128 Wr1) (unitRow 64)
  let invd := f_invd adj gp
  let h1 := f_h1 adj gp h0 Wl1 (rowOf b1)
  let h2 := f_h2 adj h1 h1 invd Wl2 Wr2 (rowOf b2)
  f_out adj (f_g3 h2 Wr3) h2 invd Wl3 (rowOf b3)

end Fused

section Direct
variable {N : ℕ}

def d_deg (adj : Mat N N) : Mat N 1 := fun j => max (zero + ∑ l : Fin N, adj (ix2 (n0 := N) (j 0) l)) floor

def d_sage {a b : ℕ} (adj : Mat N N) (deg : Mat N 1) (h : Mat N a) (Wl Wr : Mat a b) (bias : Row b) : Mat N b :=
  addVec (add (mm h Wl) (mm (divRows (mm adj h) deg) Wr)) bias

-- The reference's order of operations: aggregate, divide by the floored degree, then apply the right-hand weight.
def direct (x : Mat N 128) (adj : Mat N N) (Wm : Mat 128 128) (bm : Row 128) (Wl1 Wr1 : Mat 128 64) (b1 : Row 64)
    (Wl2 Wr2 : Mat 64 128) (b2 : Row 128) (Wl3 Wr3 : Mat 128 40) (b3 : Row 40) : Mat N 40 :=
  let deg := d_deg adj
  let h0 := addVec (mm x Wm) bm
  let h1 := relu (d_sage adj deg h0 Wl1 Wr1 b1)
  let h2 := relu (d_sage adj deg h1 Wl2 Wr2 b2)
  d_sage adj deg h2 Wl3 Wr3 b3

end Direct

end Cert.Spec

end
-- ==== Proof.KI.HostV.lean ====
import proofs.«103105_g78589311582291_cont_9to1_m_296_15_alg».proof.Proof.Gen.KernelIdeal.Regions
import proofs.«103105_g78589311582291_cont_9to1_m_296_15_alg».proof.Proof.Spec
import Idealize.ShloMosaic.Lib.ValueIdx
import Idealize.ShloMosaic.Lib.ValueLayout
import Idealize.ShloMosaic.Lib.StableHlo.Run
import Idealize.ShloMosaic.Lib.Pipeline.Value

noncomputable section

namespace Cert.KernelIdeal.Hand

open Idealize.ShloMosaic Idealize.ShloMosaic.TcCoe Idealize.ShloMosaic.ValueIdx
open Cert.KernelIdeal Cert.KernelIdeal.Gen

namespace HostV

section Scatter
variable {s si u : Shape} {w : ℕ} {α : Type}

private theorem scatter_foldl_miss (d : ScatterDims s si u) (idx : IVec si w) (upd : u.Idx → α) (i' : s.Idx)
    (l : List (Fin u.numel)) (h : ∀ n ∈ l, d.resultIdx? (u.rowMajor.symm n) idx ≠ some i') (r : s.Idx → α) :
    (l.foldl (fun r n =>
      match d.resultIdx? (u.rowMajor.symm n) idx with
      | some i => fun i' => if i' = i then (fun _ b => b) (r i) (upd (u.rowMajor.symm n)) else r i'
      | none => r) r) i' = r i' := by
  induction l generalizing r with
  | nil => rfl
  | cons a t ih =>
    rw [List.foldl_cons, ih (fun n hn => h n (List.mem_cons_of_mem _ hn))]
    have ha := h a (List.mem_cons_self ..)
    revert ha
    generalize d.resultIdx? (u.rowMajor.symm a) idx = o
    intro ha
    cases o with
    | none => rfl
    | some i =>
      show (if i' = i then _ else r i') = r i'
      exact if_neg (fun e => ha (by rw [e]))

-- An entry on which no update lands keeps the operand's value.
theorem scatter_set_apply_of_miss (d : ScatterDims s si u) (x : s.Idx → α) (idx : IVec si w) (upd : u.Idx → α) (i' : s.Idx)
    (h : ∀ j : u.Idx, d.resultIdx? j idx ≠ some i') :
    Host.scatter d (fun _ b => b) x idx upd i' = x i' :=
  scatter_foldl_miss d idx upd i' _ (fun n _ => h _) x

-- An entry on which exactly one update index lands holds that update: later steps miss it.
theorem scatter_set_apply_of_hit (d : ScatterDims s si u) (x : s.Idx → α) (idx : IVec si w) (upd : u.Idx → α) (i' : s.Idx)
    (j₀ : u.Idx) (h₀ : d.resultIdx? j₀ idx = some i') (huniq : ∀ j : u.Idx, d.resultIdx? j idx = some i' → j = j₀) :
    Host.scatter d (fun _ b => b) x idx upd i' = upd j₀ := by
  have key : ∀ (l : List (Fin u.numel)) (r : s.Idx → α), u.rowMajor j₀ ∈ l →
      (l.foldl (fun r n =>
        match d.resultIdx? (u.rowMajor.symm n) idx with
        | some i => fun i' => if i' = i then (fun _ b => b) (r i) (upd (u.rowMajor.symm n)) else r i'
        | none => r) r) i' = upd j₀ := by
    intro l
    induction l with
    | nil => intro r hm; exact absurd hm (List.not_mem_nil)
    | cons a t ih =>
      intro r hm
      rw [List.foldl_cons]
      by_cases ht : u.rowMajor j₀ ∈ t
      · exact ih _ ht
      · have ha : a = u.rowMajor j₀ := by
          rcases List.mem_cons.1 hm with e | e
          · exact e.symm
          · exact absurd e ht
        have hmiss : ∀ n ∈ t, d.resultIdx? (u.rowMajor.symm n) idx ≠ some i' := by
          intro n hn e
          have := huniq _ e
          apply ht
          rw [← this, Equiv.apply_symm_apply]
          exact hn
        rw [scatter_foldl_miss d idx upd i' t hmiss]
        have hj : u.rowMajor.symm a = j₀ := by rw [ha, Equiv.symm_apply_apply]
        rw [hj, h₀]
        show (if i' = i' then _ else _) = upd j₀
        exact if_pos rfl
  exact key _ x (List.mem_finRange _)

-- An update lands where start plus window coordinate point, when that is an index of the operand.
theorem resultIdx?_of (d : ScatterDims s si u) (idx : IVec si w) (j : u.Idx) (i : s.Idx)
    (h : ∀ a, d.start j idx a + d.window j a = (i a).val) : d.resultIdx? j idx = some i := by
  unfold ScatterDims.resultIdx?
  rw [dif_pos fun a => by rw [h a]; exact ⟨Int.natCast_nonneg _, Int.ofNat_lt.2 (i a).isLt⟩]
  exact congrArg some (funext fun a => Fin.ext (by show (d.start j idx a + d.window j a).toNat = _; rw [h a]; rfl))

end Scatter

theorem landing_whole (idx : IVec S0 32) (j : S128x40.Idx) :
    scatter_S128x40_S0_S128x40_01_n_n_0.resultIdx? j idx = some j := by
  have hs : ∀ a, scatter_S128x40_S0_S128x40_01_n_n_0.start j idx a = 0 := by
    intro a; unfold ScatterDims.start; exact dif_neg (by simp [scatter_S128x40_S0_S128x40_01_n_n_0])
  have hw0 : scatter_S128x40_S0_S128x40_01_n_n_0.window j (0 : Fin 2) = (j 0).val := by
    unfold ScatterDims.window; rw [dif_pos (by decide)]; rfl
  have hw1 : scatter_S128x40_S0_S128x40_01_n_n_0.window j (1 : Fin 2) = (j 1).val := by
    unfold ScatterDims.window; rw [dif_pos (by decide)]; rfl
  refine resultIdx?_of _ idx j j fun a => ?_
  rw [hs a, zero_add]
  match a with
  | ⟨0, _⟩ => exact congrArg Nat.cast hw0
  | ⟨1, _⟩ => exact congrArg Nat.cast hw1

def widen (j : S128x64.Idx) : S128x128.Idx :=
  ix2 (n0 := 128) (n1 := 128) ⟨(j 0).val, (j 0).isLt⟩ ⟨(j 1).val, Nat.lt_of_lt_of_le (j 1).isLt (by decide)⟩

theorem landing_cols (idx : IVec S1 32) (hidx : ∀ k, idx k = 0#32) (j : S128x64.Idx) :
    scatter_S128x128_S1_S128x64_01_n_1_0.resultIdx? j idx = some (widen j) := by
  have hs : ∀ a, scatter_S128x128_S1_S128x64_01_n_1_0.start j idx a = 0 := by
    intro a; unfold ScatterDims.start
    split
    · rw [hidx]; decide
    · rfl
  have hw0 : scatter_S128x128_S1_S128x64_01_n_1_0.window j (0 : Fin 2) = (j 0).val := by
    unfold ScatterDims.window; rw [dif_pos (by decide)]; rfl
  have hw1 : scatter_S128x128_S1_S128x64_01_n_1_0.window j (1 : Fin 2) = (j 1).val := by
    unfold ScatterDims.window; rw [dif_pos (by decide)]; rfl
  refine resultIdx?_of _ idx j (widen j) fun a => ?_
  rw [hs a, zero_add]
  match a with
  | ⟨0, _⟩ => exact congrArg Nat.cast hw0
  | ⟨1, _⟩ => exact congrArg Nat.cast hw1

theorem landing_point (idx : IVec S2 32) (hi0 : idx (ix1 (n := 2) ⟨0, by decide⟩) = 0#32)
    (hi1 : idx (ix1 (n := 2) ⟨1, by decide⟩) = 64#32) (j : S_.Idx) :
    scatter_S1x128_S2_S__n_01_01_0.resultIdx? j idx = some (ix2 (n0 := 1) (n1 := 128) ⟨0, by decide⟩ ⟨64, by decide⟩) := by
  have e0 : ∀ c : Fin scatter_S1x128_S2_S__n_01_01_0.scatterDimsToOperandDims.length,
      scatter_S1x128_S2_S__n_01_01_0.siIdx j c = ix1 (n := 2) ⟨c.val, c.isLt⟩ := by
    intro c; funext b
    match b with
    | ⟨0, _⟩ => rfl
  have hs0 : scatter_S1x128_S2_S__n_01_01_0.start j idx (0 : Fin 2) = 0 := by
    unfold ScatterDims.start; rw [dif_pos (by decide), e0]
    exact (congrArg BitVec.toInt hi0).trans (by decide)
  have hs1 : scatter_S1x128_S2_S__n_01_01_0.start j idx (1 : Fin 2) = 64 := by
    unfold ScatterDims.start; rw [dif_pos (by decide), e0]
    exact (congrArg BitVec.toInt hi1).trans (by decide)
  have hw : ∀ a, scatter_S1x128_S2_S__n_01_01_0.window j a = 0 := by
    intro a; unfold ScatterDims.window
    match a with
    | ⟨0, _⟩ => exact dif_neg (show (0 : Fin 2) ∉ scatter_S1x128_S2_S__n_01_01_0.sKept by decide)
    | ⟨1, _⟩ => exact dif_neg (show (1 : Fin 2) ∉ scatter_S1x128_S2_S__n_01_01_0.sKept by decide)
  refine resultIdx?_of _ idx j _ fun a => ?_
  rw [hw a]
  match a with
  | ⟨0, _⟩ => exact (congrArg (· + ((0 : ℕ) : ℤ)) hs0).trans rfl
  | ⟨1, _⟩ => exact (congrArg (· + ((0 : ℕ) : ℤ)) hs1).trans rfl

end HostV

open HostV

variable (m : (ℓ : Loc nD τ sig) → Buf (Elt Ideal) ℓ) (c : Dev nD)

theorem host_v9 : (Gen.V1 m c main_v9 : S128x40.Idx → EReal) = m ((c.tc : Thread nD τ).loc main_arg11) := by
  have e : (Gen.V1 m c main_v9 : S128x40.Idx → EReal) =
      Host.scatter scatter_S128x40_S0_S128x40_01_n_n_0 (fun _ b => b)
        (broadcastInDim S128x40 ![] Facts₀.bcast_S_S128x40 (constant (F := Ideal) S_ .f32 0x00000000#32))
        (emptyVec S0 Facts₀.hz_S0 : IVec S0 32)
        (m ((c.tc : Thread nD τ).loc main_arg11) : S128x40.Idx → EReal) := by
    dsimp only [Gen.V1, Gen.V0, Gen.hostOps0]; after_results <;> rfl
  rw [e]; funext j
  exact scatter_set_apply_of_hit _ _ _ _ j j (landing_whole _ j)
    (fun j' h => by rw [landing_whole] at h; exact Option.some.inj h)

theorem host_v2 : (Gen.V1 m c main_v2 : S128x128.Idx → EReal) = Cert.Spec.padCols 128 (m ((c.tc : Thread nD τ).loc main_arg5)) := by
  have e : (Gen.V1 m c main_v2 : S128x128.Idx → EReal) =
      Host.scatter scatter_S128x128_S1_S128x64_01_n_1_0 (fun _ b => b)
        (broadcastInDim S128x128 ![] Facts₀.bcast_S_S128x128 (constant (F := Ideal) S_ .f32 0x00000000#32))
        (broadcastInDim S1 ![] Facts₀.bcast_S_S1 (constantI S_ 32 0#32) : IVec S1 32)
        (m ((c.tc : Thread nD τ).loc main_arg5) : S128x64.Idx → EReal) := by
    dsimp only [Gen.V1, Gen.V0, Gen.hostOps0]; after_results <;> rfl
  rw [e]; funext i
  obtain ⟨p, q, rfl⟩ : ∃ p q, i = ix2 p q := ⟨i 0, i 1, eq_ix2 i⟩
  have hidx : ∀ k, (broadcastInDim S1 ![] Facts₀.bcast_S_S1 (constantI S_ 32 0#32) : IVec S1 32) k = 0#32 := fun _ => rfl
  unfold Cert.Spec.padCols
  by_cases hq : q.val < 64
  ·
    rw [dif_pos hq]
    refine scatter_set_apply_of_hit _ _ _ _ _ (ix2 (n0 := 128) (n1 := 64) p ⟨q.val, hq⟩) ?_ ?_
    · rw [landing_cols _ hidx]; rfl
    · intro j' h
      rw [landing_cols _ hidx] at h
      have h' := Option.some.inj h
      have h0 : (j' 0).val = p.val := congrArg (fun f : S128x128.Idx => (f 0).val) h'
      have h1 : (j' 1).val = q.val := congrArg (fun f : S128x128.Idx => (f 1).val) h'
      rw [eq_ix2 j']
      exact congrArg₂ _ (Fin.ext h0) (Fin.ext h1)
  ·
    rw [dif_neg hq]
    refine (scatter_set_apply_of_miss _ _ _ _ _ ?_).trans rfl
    intro j' h
    rw [landing_cols _ hidx] at h
    have h1 : (j' 1).val = q.val := congrArg (fun f : S128x128.Idx => (f 1).val) (Option.some.inj h)
    have : (j' 1).val < 64 := (j' 1).isLt
    omega

theorem host_v7 : (Gen.V1 m c main_v7 : S1x128.Idx → EReal) = Cert.Spec.unitRow 64 := by
  have e : (Gen.V1 m c main_v7 : S1x128.Idx → EReal) =
      Host.scatter scatter_S1x128_S2_S__n_01_01_0 (fun _ b => b)
        (broadcastInDim S1x128 ![] Facts₀.bcast_S_S1x128 (constant (F := Ideal) S_ .f32 0x00000000#32))
        (concatenate S2 0 [⟨S1, (broadcastInDim S1 ![] Facts₀.bcast_S_S1 (constantI S_ 32 0#32) : IVec S1 32)⟩,
          ⟨S1, (broadcastInDim S1 ![] Facts₀.bcast_S_S1 (constantI S_ 32 64#32) : IVec S1 32)⟩] Facts₀.concatenates_S1_S1_S2_d0 : IVec S2 32)
        (constant (F := Ideal) S_ .f32 0x3F800000#32) := by
    dsimp only [Gen.V1, Gen.V0, Gen.hostOps0]; after_results <;> rfl
  rw [e]; funext i
  obtain ⟨p, q, rfl⟩ : ∃ p q, i = ix2 p q := ⟨i 0, i 1, eq_ix2 i⟩

  have hi0 : (concatenate S2 0 [⟨S1, (broadcastInDim S1 ![] Facts₀.bcast_S_S1 (constantI S_ 32 0#32) : IVec S1 32)⟩,
      ⟨S1, (broadcastInDim S1 ![] Facts₀.bcast_S_S1 (constantI S_ 32 64#32) : IVec S1 32)⟩] Facts₀.concatenates_S1_S1_S2_d0 : IVec S2 32)
      (ix1 (n := 2) ⟨0, by decide⟩) = 0#32 :=
    (concatenate_pair_apply_left (t := S2) (s₁ := S1) (s₂ := S1) 0 _ _ Facts₀.concatenates_S1_S1_S2_d0 _ rfl (ix1 (n := 1) ⟨0, by decide⟩)
      (fun b => match b with | ⟨0, _⟩ => rfl)).trans rfl
  have hi1 : (concatenate S2 0 [⟨S1, (broadcastInDim S1 ![] Facts₀.bcast_S_S1 (constantI S_ 32 0#32) : IVec S1 32)⟩,
      ⟨S1, (broadcastInDim S1 ![] Facts₀.bcast_S_S1 (constantI S_ 32 64#32) : IVec S1 32)⟩] Facts₀.concatenates_S1_S1_S2_d0 : IVec S2 32)
      (ix1 (n := 2) ⟨1, by decide⟩) = 64#32 :=
    (concatenate_pair_apply_right (t := S2) (s₁ := S1) (s₂ := S1) 0 _ _ Facts₀.concatenates_S1_S1_S2_d0 _ rfl rfl (ix1 (n := 1) ⟨0, by decide⟩)
      (fun b hb => match b, hb with | ⟨0, _⟩, hb => absurd rfl hb) rfl).trans rfl
  have hp : p.val = 0 := by have := p.isLt; omega
  unfold Cert.Spec.unitRow
  by_cases hq : q.val = 64
  · rw [if_pos hq]
    refine (scatter_set_apply_of_hit _ _ _ _ _ ix0 ?_ (fun j' _ => eq_ix0 j')).trans rfl
    rw [landing_point _ hi0 hi1]
    exact congrArg some (congrArg₂ _ (Fin.ext hp.symm) (Fin.ext hq.symm))
  · rw [if_neg hq]
    refine (scatter_set_apply_of_miss _ _ _ _ _ ?_).trans rfl
    intro j' h
    rw [landing_point _ hi0 hi1] at h
    exact hq (congrArg (fun f : S1x128.Idx => (f 1).val) (Option.some.inj h)).symm

-- A vector recast as a one-row array reads, at (0, i), the vector at i.
theorem rowOf_cast {n : ℕ} (x : (⟨1, ![n]⟩ : Shape).Idx → EReal) (h : (⟨1, ![n]⟩ : Shape).ShapeCasts ⟨2, ![1, n]⟩) :
    shapeCast ⟨2, ![1, n]⟩ x h = Cert.Spec.rowOf x := funext fun j => by
  obtain ⟨a, b, rfl⟩ : ∃ a b, j = ix2 a b := ⟨j 0, j 1, eq_ix2 j⟩
  exact shapeCast_a_1a_apply _ _ a b

theorem host_v10 : (Gen.V1 m c main_v10 : S1x128.Idx → EReal) = Cert.Spec.rowOf (m ((c.tc : Thread nD τ).loc main_arg3)) :=
  (show (Gen.V1 m c main_v10 : S1x128.Idx → EReal) = shapeCast S1x128 (m ((c.tc : Thread nD τ).loc main_arg3) : S128.Idx → EReal)
    Facts₀.shapeCasts_S128_S1x128 by dsimp only [Gen.V1, Gen.V0, Gen.hostOps0]; after_results <;> rfl).trans (rowOf_cast _ _)

theorem host_v11 : (Gen.V1 m c main_v11 : S1x64.Idx → EReal) = Cert.Spec.rowOf (m ((c.tc : Thread nD τ).loc main_arg6)) :=
  (show (Gen.V1 m c main_v11 : S1x64.Idx → EReal) = shapeCast S1x64 (m ((c.tc : Thread nD τ).loc main_arg6) : S64.Idx → EReal)
    Facts₀.shapeCasts_S64_S1x64 by dsimp only [Gen.V1, Gen.V0, Gen.hostOps0]; after_results <;> rfl).trans (rowOf_cast _ _)

theorem host_v12 : (Gen.V1 m c main_v12 : S1x128.Idx → EReal) = Cert.Spec.rowOf (m ((c.tc : Thread nD τ).loc main_arg9)) :=
  (show (Gen.V1 m c main_v12 : S1x128.Idx → EReal) = shapeCast S1x128 (m ((c.tc : Thread nD τ).loc main_arg9) : S128.Idx → EReal)
    Facts₀.shapeCasts_S128_S1x128 by dsimp only [Gen.V1, Gen.V0, Gen.hostOps0]; after_results <;> rfl).trans (rowOf_cast _ _)

theorem host_v13 : (Gen.V1 m c main_v13 : S1x40.Idx → EReal) = Cert.Spec.rowOf (m ((c.tc : Thread nD τ).loc main_arg12)) :=
  (show (Gen.V1 m c main_v13 : S1x40.Idx → EReal) = shapeCast S1x40 (m ((c.tc : Thread nD τ).loc main_arg12) : S40.Idx → EReal)
    Facts₀.shapeCasts_S40_S1x40 by dsimp only [Gen.V1, Gen.V0, Gen.hostOps0]; after_results <;> rfl).trans (rowOf_cast _ _)

-- The host operations write none of the arrays outside their own results.
theorem host_kept (r : Ref sig .tc) (h : r ∉ Gen.hostOps0_W) : Gen.V1 m c r = m ((c.tc : Thread nD τ).loc r) :=
  (Gen.V1_of m c r h).trans rfl

end Cert.KernelIdeal.Hand

end
-- ==== Proof.LibValue.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.Hand

open Idealize.ShloMosaic Idealize.ShloMosaic.ValueIdx
open scoped BigOperators

theorem zero2 : (![0, 0] : Fin 2 → Nat) = fun _ => 0 := funext fun a => by fin_cases a <;> rfl

-- A rows-by-columns product into a zero accumulator: entry (p, q) is the sum over l of A (p, l) * B (l, q).
theorem matmul_plain_at {m k n : ℕ} {φ₁ φ₂ : FTy} (D : DotDims ⟨2, ![m, k]⟩ ⟨2, ![k, n]⟩ ⟨2, ![m, n]⟩)
    (hD : D = .plain m k n) (A : FVec Ideal ⟨2, ![m, k]⟩ φ₁) (B : FVec Ideal ⟨2, ![k, n]⟩ φ₂) (p : Fin m) (q : Fin n) :
    matmul D none A B (constant (F := Ideal) ⟨2, ![m, n]⟩ .f32 0x00000000#32) (ix2 p q)
      = ∑ l : Fin k, A (ix2 p l) * B (ix2 l q) := by
  subst hD
  simp only [matmul]
  rw [Ideal.matmul_constant_zero_apply, ← Equiv.sum_comp (contrEquiv1 (.plain m k n) k rfl rfl).symm]
  refine Finset.sum_congr rfl fun l _ => ?_
  have hl := contrEquiv1_symm_val (.plain m k n) k rfl rfl l
  exact congr (congrArg _ (congrArg A (Shape.idx_ext₂ rfl hl))) (congrArg B (Shape.idx_ext₂ hl rfl))

-- Two pieces of `a` rows stacked along the rows: a row below `a` is the first piece's.
theorem stack_lo {a c b : ℕ} {α : Type} (x₁ x₂ : (⟨2, ![a, b]⟩ : Shape).Idx → α)
    (h : Shape.Concatenates [(⟨2, ![a, b]⟩ : Shape), ⟨2, ![a, b]⟩] ⟨2, ![c, b]⟩ 0)
    (p : Fin c) (q : Fin b) (p' : Fin a) (hp : p'.val = p.val) :
    concatenate ⟨2, ![c, b]⟩ 0 [⟨⟨2, ![a, b]⟩, x₁⟩, ⟨⟨2, ![a, b]⟩, x₂⟩] h (ix2 p q) = x₁ (ix2 p' q) :=
  concatenate_pair_apply_left 0 x₁ x₂ h (ix2 p q) rfl (ix2 p' q) (Fin.forall_fin_two.2 ⟨hp, rfl⟩)

-- Two pieces of `a` rows stacked along the rows: a row from `a` on is the second piece's, `a` rows up.
theorem stack_hi {a c b : ℕ} {α : Type} (x₁ x₂ : (⟨2, ![a, b]⟩ : Shape).Idx → α)
    (h : Shape.Concatenates [(⟨2, ![a, b]⟩ : Shape), ⟨2, ![a, b]⟩] ⟨2, ![c, b]⟩ 0)
    (p : Fin c) (q : Fin b) (p' : Fin a) (hp : p'.val + a = p.val) :
    concatenate ⟨2, ![c, b]⟩ 0 [⟨⟨2, ![a, b]⟩, x₁⟩, ⟨⟨2, ![a, b]⟩, x₂⟩] h (ix2 p q) = x₂ (ix2 p' q) :=
  concatenate_pair_apply_right 0 x₁ x₂ h (ix2 p q) rfl rfl (ix2 p' q)
    (Fin.forall_fin_two.2 ⟨fun hne => absurd rfl hne, fun _ => rfl⟩) hp

-- A column `[a, 1]` broadcast to `[a, b]` reads, at `(p, c)`, the column at row `p`.
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) (Fin.forall_fin_two.2 ⟨?_, rfl⟩)
  show p.val = if a = 1 then 0 else p.val
  split
  · have := p.isLt; omega
  · rfl

-- `x` is rows `R, R + 1, …` of `X`.
def RowsOf {n m b : ℕ} {α : Type} (X : (⟨2, ![n, m]⟩ : Shape).Idx → α) (R : ℕ) (x : (⟨2, ![b, m]⟩ : Shape).Idx → α) : Prop :=
  ∀ (p : Fin b) (q : Fin m) (r : Fin n), r.val = R + p.val → x (ix2 p q) = X (ix2 r q)

theorem RowsOf.at {n m b : ℕ} {α : Type} {X : (⟨2, ![n, m]⟩ : Shape).Idx → α} {R : ℕ} {x : (⟨2, ![b, m]⟩ : Shape).Idx → α}
    (h : RowsOf X R x) (y : (⟨2, ![b, m]⟩ : Shape).Idx) (k : (⟨2, ![n, m]⟩ : Shape).Idx)
    (h0 : (k 0).val = R + (y 0).val) (h1 : (k 1).val = (y 1).val) : x y = X k :=
  (congrArg x (eq_ix2 y)).trans ((h (y 0) (y 1) (k 0) h0).trans (congrArg X (Shape.idx_ext₂ rfl h1.symm)))

-- Rows `R …` of `X` times `Y` are rows `R …` of the product `X · Y`.
theorem RowsOf.matmul {n k m b : ℕ} {φ₁ φ₂ : FTy} {X : (⟨2, ![n, k]⟩ : Shape).Idx → EReal} {R : ℕ}
    {x : FVec Ideal ⟨2, ![b, k]⟩ φ₁} (D : DotDims ⟨2, ![b, k]⟩ ⟨2, ![k, m]⟩ ⟨2, ![b, m]⟩) (hD : D = .plain b k m)
    (Y : FVec Ideal ⟨2, ![k, m]⟩ φ₂) (hx : RowsOf X R x) :
    RowsOf (fun j : (⟨2, ![n, m]⟩ : Shape).Idx => ∑ l : Fin k, X (ix2 (j 0) l) * Y (ix2 l (j 1))) R
      (matmul D none x Y (constant (F := Ideal) ⟨2, ![b, m]⟩ .f32 0x00000000#32)) := fun p q r hr => by
  rw [matmul_plain_at D hD]
  exact Finset.sum_congr rfl fun l _ => by rw [hx p l r hr]; rfl

-- Rows `R …` stacked on rows `R + a …` are rows `R …`.
theorem RowsOf.stack {n m a c : ℕ} {α : Type} {X : (⟨2, ![n, m]⟩ : Shape).Idx → α} {R : ℕ}
    {x₁ x₂ : (⟨2, ![a, m]⟩ : Shape).Idx → α}
    (h : Shape.Concatenates [(⟨2, ![a, m]⟩ : Shape), ⟨2, ![a, m]⟩] ⟨2, ![c, m]⟩ 0) (hc : c = a + a)
    (h₁ : RowsOf X R x₁) (h₂ : RowsOf X (R + a) x₂) :
    RowsOf X R (concatenate ⟨2, ![c, m]⟩ 0 [⟨⟨2, ![a, m]⟩, x₁⟩, ⟨⟨2, ![a, m]⟩, x₂⟩] h) := fun p q r hr => by
  have hp := p.isLt
  by_cases hlo : p.val < a
  · rw [stack_lo x₁ x₂ h p q ⟨p.val, hlo⟩ rfl]
    exact h₁ _ q r hr
  · rw [stack_hi x₁ x₂ h p q ⟨p.val - a, by omega⟩ (by show p.val - a + a = p.val; omega)]
    exact h₂ _ q r (by show r.val = R + a + (p.val - a); omega)

-- `X` read through the unit-stride rectangle of `b` rows and all columns at block index `(k, 0)` is rows `k * s …` of `X`.
theorem rowsOf_rect {n m b : ℕ} {α : Type} (X : (⟨2, ![n, m]⟩ : Shape).Idx → α) (ix sz : Fin 2 → ℕ) (inb) {k s R : ℕ}
    (hi : ix 0 = k ∧ ix 1 = 0) (hs : sz 0 = s) (hR : k * s = R) :
    RowsOf X R fun y => X ((Rect.unit (s := ⟨2, ![n, m]⟩) (fun a => ix a * sz a) ![b, m] inb).emb y) :=
  fun p q r hr => congrArg X (Shape.idx_ext₂ (by show ix 0 * sz 0 + 1 * p.val = r.val; rw [hi.1, hs, hR]; omega)
    (by show ix 1 * sz 1 + 1 * q.val = q.val; rw [hi.2]; omega))

-- `X` read through the rectangle of all its rows and columns at block index `(0, 0)` is `X` itself.
theorem whole_rect {n m : ℕ} {α : Type} (X : (⟨2, ![n, m]⟩ : Shape).Idx → α) (ix sz : Fin 2 → ℕ) (inb)
    (hi : ix 0 = 0 ∧ ix 1 = 0) :
    (fun y => X ((Rect.unit (s := ⟨2, ![n, m]⟩) (fun a => ix a * sz a) ![n, m] inb).emb y)) = X :=
  funext fun y => congrArg X (Shape.idx_ext₂ (by show ix 0 * sz 0 + 1 * (y 0).val = (y 0).val; rw [hi.1]; omega)
    (by show ix 1 * sz 1 + 1 * (y 1).val = (y 1).val; rw [hi.2]; omega))

-- Rows `k * s …` of `X` at `j` are `X` at the place of `j` in the rectangle at block index `(k, 0)`.
theorem RowsOf.at_rect {n m b : ℕ} {α : Type} {X : (⟨2, ![n, m]⟩ : Shape).Idx → α} {R : ℕ}
    {x : (⟨2, ![b, m]⟩ : Shape).Idx → α} (h : RowsOf X R x) (ix sz : Fin 2 → ℕ) (inb) {k s : ℕ}
    (hi : ix 0 = k ∧ ix 1 = 0) (hs : sz 0 = s) (hR : k * s = R) (j : (⟨2, ![b, m]⟩ : Shape).Idx) :
    x j = X ((Rect.unit (s := ⟨2, ![n, m]⟩) (fun a => ix a * sz a) ![b, m] inb).emb j) :=
  h.at j _ (by show ix 0 * sz 0 + 1 * (j 0).val = R + (j 0).val; rw [hi.1, hs, hR]; omega)
    (by show ix 1 * sz 1 + 1 * (j 1).val = (j 1).val; rw [hi.2]; omega)

-- Row `r` lies in the block of `B` rows and all columns whose block index is `(r / B, 0)`.
theorem mem_rowBlock {n m : ℕ} (B : ℕ) (hB : 0 < B) (ix sz xs : Fin 2 → ℕ) {inb} (i : (⟨2, ![n, m]⟩ : Shape).Idx)
    (h0 : ix 0 = (i 0).val / B) (h1 : ix 1 = 0) (hs0 : sz 0 = B) (hs1 : sz 1 = m) (hxs : xs = sz) :
    i ∈ (Rect.unit (s := ⟨2, ![n, m]⟩) (fun a => ix a * sz a) xs inb).set := by
  subst hxs
  rw [Rect.mem_set_unit, Fin.forall_fin_two, h0, h1, hs0, hs1]
  exact ⟨⟨Nat.div_mul_le_self _ _, Nat.lt_div_mul_add hB⟩, by have := idx2_lt1 i; omega⟩

end Cert.Hand
-- ==== Proof.KI.Value0.lean ====
import proofs.«103105_g78589311582291_cont_9to1_m_296_15_alg».proof.Proof.KI.Body0
import proofs.«103105_g78589311582291_cont_9to1_m_296_15_alg».proof.Proof.Spec
import proofs.«103105_g78589311582291_cont_9to1_m_296_15_alg».proof.Proof.LibValue

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Hand
open scoped BigOperators

namespace Region0

-- On rows `R …` of `X` the first stored value is rows `R …` of `X · W + B`.
theorem h0_block (X : S10000x128.Idx → EReal) (W : S128x128.Idx → EReal) (B : S1x128.Idx → EReal)
    (x : Vec Ideal S400x128 .f32) (R : ℕ) (hx : RowsOf X R x) :
    RowsOf (Cert.Spec.f_h0 (N := 10000) X W B) R (k0_pay1 x W B) := fun p q r hr => by
  unfold k0_pay1
  rw [addf_apply, RowsOf.matmul dot_S400x128_S128x128_S400x128_1_0_0_1_n_n rfl W hx p q r hr, shapeCast_self,
    broadcastTo_1b_ab_apply]
  rfl

-- On rows `R …` of `X` the second stored value is rows `R …` of `(X · W + B) · W₂ + E`.
theorem gp_block (X : S10000x128.Idx → EReal) (W : S128x128.Idx → EReal) (B : S1x128.Idx → EReal)
    (W2 : S128x128.Idx → EReal) (E : S1x128.Idx → EReal) (x : Vec Ideal S400x128 .f32) (R : ℕ) (hx : RowsOf X R x) :
    RowsOf (Cert.Spec.f_gp (N := 10000) (Cert.Spec.f_h0 X W B) W2 E) R (k0_pay2 x W B W2 E) := fun p q r hr => by
  unfold k0_pay2
  rw [truncf_apply, addf_apply, shapeCast_self, shapeCast_self,
    RowsOf.matmul dot_S400x128_S128x128_S400x128_1_0_0_1_n_n rfl W2 (h0_block X W B x R hx) p q r hr,
    broadcastTo_1b_ab_apply]
  rfl

theorem bix0 : ∀ t : Fin cfg0.N, win0_0.index t (0 : Fin 2) = t.val ∧ win0_0.index t (1 : Fin 2) = 0 :=
  (by decide +kernel : ∀ t : Fin grid0.N, _)

theorem bix1 : ∀ t : Fin cfg0.N, win0_1.index t (0 : Fin 2) = 0 ∧ win0_1.index t (1 : Fin 2) = 0 :=
  (by decide +kernel : ∀ t : Fin grid0.N, _)

theorem bix2 : ∀ t : Fin cfg0.N, win0_2.index t (0 : Fin 2) = 0 ∧ win0_2.index t (1 : Fin 2) = 0 :=
  (by decide +kernel : ∀ t : Fin grid0.N, _)

theorem bix3 : ∀ t : Fin cfg0.N, win0_3.index t (0 : Fin 2) = 0 ∧ win0_3.index t (1 : Fin 2) = 0 :=
  (by decide +kernel : ∀ t : Fin grid0.N, _)

theorem bix4 : ∀ t : Fin cfg0.N, win0_4.index t (0 : Fin 2) = 0 ∧ win0_4.index t (1 : Fin 2) = 0 :=
  (by decide +kernel : ∀ t : Fin grid0.N, _)

theorem bix5 : ∀ t : Fin cfg0.N, win0_5.index t (0 : Fin 2) = t.val ∧ win0_5.index t (1 : Fin 2) = 0 :=
  (by decide +kernel : ∀ t : Fin grid0.N, _)

theorem bix6 : ∀ t : Fin cfg0.N, win0_6.index t (0 : Fin 2) = t.val ∧ win0_6.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

theorem xblk : RowsOf (V c main_arg0 : S10000x128.Idx → EReal) (400 * t.val) (iblk0 V c 0 t : Vec Ideal S400x128 .f32) :=
  rowsOf_rect (V c main_arg0) _ _ _ (bix0 t) (s := 400) rfl (by omega)

theorem w1blk : (iblk0 V c 1 t : Vec Ideal S128x128 .f32) = (V c main_arg2 : S128x128.Idx → EReal) :=
  whole_rect (V c main_arg2) _ _ _ (bix1 t)

theorem b1blk : (iblk0 V c 2 t : Vec Ideal S1x128 .f32) = (V c main_v10 : S1x128.Idx → EReal) :=
  whole_rect (V c main_v10) _ _ _ (bix2 t)

theorem w2blk : (iblk0 V c 3 t : Vec Ideal S128x128 .f32) = (V c main_v2 : S128x128.Idx → EReal) :=
  whole_rect (V c main_v2) _ _ _ (bix3 t)

theorem b2blk : (iblk0 V c 4 t : Vec Ideal S1x128 .f32) = (V c main_v7 : S1x128.Idx → EReal) :=
  whole_rect (V c main_v7) _ _ _ (bix4 t)

def pointOf (i : S10000x128.Idx) : Fin cfg0.N :=
  ⟨(i 0).val / 400, by
    have h : (i 0).val < 10000 := idx2_lt0 i
    show (i 0).val / 400 < grid0.N
    rw [N_0]; omega⟩

end Blocks

end Region0

section Finals
variable (V : (c : Dev nD) → (b : Ref sig .tc) → Buf (Elt Ideal) ((c : Thread nD τ).loc b))
open Region0

theorem final0_5 (c : Dev nD) :
    ((dat0 (F := Ideal) V c).arrAt 5 cfg0.N : S10000x128.Idx → EReal)
      = Cert.Spec.f_h0 (N := 10000) (V c main_arg0) (V c main_arg2) (V c main_v10) :=
  (dat0 (F := Ideal) V c).arrAt_eq_of_cover 5 _ (fun t _ => by
    show (cfg0.win 5).cut (grid0.coords t) ((dat0 V c).after 5 t) = _
    rw [after0_5]
    unfold out0_5
    rw [View.canon_unit_zero zero2]
    simp only [View.ld_unit_zero (S := S400x128) zero2, View.ld_unit_zero (S := S128x128) zero2,
      View.ld_unit_zero (S := S1x128) zero2]
    rw [w1blk, b1blk]
    funext j
    exact (h0_block _ _ _ _ _ (xblk V c t)).at_rect _ _ _ (bix5 t) (s := 400) rfl (by omega) j)
    fun i => ⟨pointOf i, flush0_5 _, by
      show i ∈ ((View.whole main_v14_0).slice (win0_5.rect (pointOf i))).set
      rw [View.set_slice_whole]
      exact mem_rowBlock 400 (by decide) _ _ _ i (bix5 _).1 (bix5 _).2 rfl rfl rfl⟩

theorem final0_6 (c : Dev nD) :
    ((dat0 (F := Ideal) V c).arrAt 6 cfg0.N : S10000x128.Idx → EReal)
      = Cert.Spec.f_gp (N := 10000) (Cert.Spec.f_h0 (V c main_arg0) (V c main_arg2) (V c main_v10)) (V c main_v2) (V c main_v7) :=
  (dat0 (F := Ideal) V c).arrAt_eq_of_cover 6 _ (fun t _ => by
    show (cfg0.win 6).cut (grid0.coords t) ((dat0 V c).after 6 t) = _
    rw [after0_6]
    unfold out0_6
    rw [View.canon_unit_zero zero2]
    simp only [View.ld_unit_zero (S := S400x128) zero2, View.ld_unit_zero (S := S128x128) zero2,
      View.ld_unit_zero (S := S1x128) zero2]
    rw [w1blk, b1blk, w2blk, b2blk]
    funext j
    exact (gp_block _ _ _ _ _ _ _ (xblk V c t)).at_rect _ _ _ (bix6 t) (s := 400) rfl (by omega) j)
    fun i => ⟨pointOf i, flush0_6 _, by
      show i ∈ ((View.whole main_v14_1).slice (win0_6.rect (pointOf i))).set
      rw [View.set_slice_whole]
      exact mem_rowBlock 400 (by decide) _ _ _ i (bix6 _).1 (bix6 _).2 rfl rfl rfl⟩

end Finals

end Cert.KernelIdeal.Hand

end
-- ==== Proof.KI.Value1.lean ====
import proofs.«103105_g78589311582291_cont_9to1_m_296_15_alg».proof.Proof.KI.Body1
import proofs.«103105_g78589311582291_cont_9to1_m_296_15_alg».proof.Proof.Spec
import proofs.«103105_g78589311582291_cont_9to1_m_296_15_alg».proof.Proof.LibValue

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Hand
open scoped BigOperators

namespace Region1

-- Rounding is the identity at the ideal values, so two slabs of the adjacency stacked are 400 rows of it.
theorem rows_block (ADJ : S10000x10000.Idx → EReal) (x0 x1 : Vec Ideal S200x10000 .f32) (R : ℕ)
    (h0 : RowsOf ADJ R x0) (h1 : RowsOf ADJ (R + 200) x1) : RowsOf ADJ R (k1_pay5 x0 x1) :=
  RowsOf.stack concatenates_S200x10000_S200x10000_S400x10000_d0 rfl (x₁ := k1_pay2 x0) (x₂ := k1_pay3 x1) h0 h1

-- The stacked products of rows `R …` of the adjacency with the table are rows `R …` of `adj · gp`.
theorem prod_block (ADJ : S10000x10000.Idx → EReal) (GP : S10000x128.Idx → EReal) (x0 x1 : Vec Ideal S200x10000 .f32)
    (R : ℕ) (h0 : RowsOf ADJ R x0) (h1 : RowsOf ADJ (R + 200) x1) :
    RowsOf (Cert.Spec.mm (n := 10000) (k := 10000) (m := 128) ADJ GP) R (k1_pay4 x0 x1 GP) := by
  unfold k1_pay4
  rw [shapeCast_self]
  exact RowsOf.stack _ rfl (RowsOf.matmul (x := k1_pay2 x0) dot_S200x10000_S10000x128_S200x128_1_0_0_1_n_n rfl GP h0)
    (RowsOf.matmul (x := k1_pay3 x1) dot_S200x10000_S10000x128_S200x128_1_0_0_1_n_n rfl GP h1)

-- On rows `R …` of the adjacency the reciprocal column is rows `R …` of the reciprocal floored degree.
theorem invd_block (ADJ : S10000x10000.Idx → EReal) (GP : S10000x128.Idx → EReal) (x0 x1 : Vec Ideal S200x10000 .f32)
    (R : ℕ) (h0 : RowsOf ADJ R x0) (h1 : RowsOf ADJ (R + 200) x1) :
    RowsOf (Cert.Spec.f_invd (N := 10000) ADJ GP) R (k1_pay6 x0 x1 GP) := fun p q r hr => by
  obtain rfl : q = 0 := Subsingleton.elim _ _
  unfold k1_pay6
  rw [divf_apply, maximumf_apply, broadcast_apply, broadcast_apply,
    slice2_axis1_apply 64 _ _ p (0 : Fin 1) (⟨64, by decide⟩ : Fin 128) rfl, prod_block ADJ GP x0 x1 R h0 h1 p _ r hr]
  rfl

-- On rows `R …` of the adjacency and of `h0` the hidden block is rows `R …` of `h1`.
theorem hid_block (ADJ : S10000x10000.Idx → EReal) (GP H0 : S10000x128.Idx → EReal) (WL : S128x64.Idx → EReal)
    (B : S1x64.Idx → EReal) (x0 x1 : Vec Ideal S200x10000 .f32) (x3 : Vec Ideal S400x128 .f32) (R : ℕ)
    (h0 : RowsOf ADJ R x0) (h1 : RowsOf ADJ (R + 200) x1) (h3 : RowsOf H0 R x3) :
    RowsOf (Cert.Spec.f_h1 (N := 10000) ADJ GP H0 WL B) R (k1_pay7 x0 x1 GP x3 WL B) := fun p q r hr => by
  unfold k1_pay7
  rw [maximumf_apply, addf_apply, addf_apply, mulf_apply, shapeCast_self, shapeCast_self,
    RowsOf.matmul dot_S400x128_S128x64_S400x64_1_0_0_1_n_n rfl WL h3 p q r hr, broadcast_apply,
    slice2_axis1_apply 0 _ _ p q (Fin.castLE (by decide : 64 ≤ 128) q) (by simp), broadcastTo_a1_ab_apply,
    broadcastTo_1b_ab_apply, invd_block ADJ GP x0 x1 R h0 h1 p 0 r hr, prod_block ADJ GP x0 x1 R h0 h1 p _ r hr]
  rfl

theorem bix0 : ∀ t : Fin cfg1.N, win1_0.index t (0 : Fin 2) = 2 * t.val ∧ win1_0.index t (1 : Fin 2) = 0 :=
  (by decide +kernel : ∀ t : Fin grid1.N, _)

theorem bix1 : ∀ t : Fin cfg1.N, win1_1.index t (0 : Fin 2) = 2 * t.val + 1 ∧ win1_1.index t (1 : Fin 2) = 0 :=
  (by decide +kernel : ∀ t : Fin grid1.N, _)

theorem bix2 : ∀ t : Fin cfg1.N, win1_2.index t (0 : Fin 2) = 0 ∧ win1_2.index t (1 : Fin 2) = 0 :=
  (by decide +kernel : ∀ t : Fin grid1.N, _)

theorem bix3 : ∀ t : Fin cfg1.N, win1_3.index t (0 : Fin 2) = t.val ∧ win1_3.index t (1 : Fin 2) = 0 :=
  (by decide +kernel : ∀ t : Fin grid1.N, _)

theorem bix4 : ∀ t : Fin cfg1.N, win1_4.index t (0 : Fin 2) = 0 ∧ win1_4.index t (1 : Fin 2) = 0 :=
  (by decide +kernel : ∀ t : Fin grid1.N, _)

theorem bix5 : ∀ t : Fin cfg1.N, win1_5.index t (0 : Fin 2) = 0 ∧ win1_5.index t (1 : Fin 2) = 0 :=
  (by decide +kernel : ∀ t : Fin grid1.N, _)

theorem bix6 : ∀ t : Fin cfg1.N, win1_6.index t (0 : Fin 2) = t.val ∧ win1_6.index t (1 : Fin 2) = 0 :=
  (by decide +kernel : ∀ t : Fin grid1.N, _)

theorem bix7 : ∀ t : Fin cfg1.N, win1_7.index t (0 : Fin 2) = t.val ∧ win1_7.index t (1 : Fin 2) = 0 :=
  (by decide +kernel : ∀ t : Fin grid1.N, _)

theorem bix8 : ∀ t : Fin cfg1.N, win1_8.index t (0 : Fin 2) = t.val ∧ win1_8.index t (1 : Fin 2) = 0 :=
  (by decide +kernel : ∀ t : Fin grid1.N, _)

theorem bix9 : ∀ t : Fin cfg1.N, win1_9.index t (0 : Fin 2) = t.val ∧ win1_9.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

theorem slab0 : RowsOf (V c main_arg1 : S10000x10000.Idx → EReal) (400 * t.val) (iblk1 V c 0 t : Vec Ideal S200x10000 .f32) :=
  rowsOf_rect (V c main_arg1) _ _ _ (bix0 t) (s := 200) rfl (by omega)

theorem slab1 : RowsOf (V c main_arg1 : S10000x10000.Idx → EReal) (400 * t.val + 200) (iblk1 V c 1 t : Vec Ideal S200x10000 .f32) :=
  rowsOf_rect (V c main_arg1) _ _ _ (bix1 t) (s := 200) rfl (by omega)

theorem tableblk : (iblk1 V c 2 t : Vec Ideal S10000x128 .bf16) = (V c main_v14_1 : S10000x128.Idx → EReal) :=
  whole_rect (V c main_v14_1) _ _ _ (bix2 t)

theorem featblk : RowsOf (V c main_v14_0 : S10000x128.Idx → EReal) (400 * t.val) (iblk1 V c 3 t : Vec Ideal S400x128 .f32) :=
  rowsOf_rect (V c main_v14_0) _ _ _ (bix3 t) (s := 400) rfl (by omega)

theorem weightblk : (iblk1 V c 4 t : Vec Ideal S128x64 .f32) = (V c main_arg4 : S128x64.Idx → EReal) :=
  whole_rect (V c main_arg4) _ _ _ (bix4 t)

theorem biasblk : (iblk1 V c 5 t : Vec Ideal S1x64 .f32) = (V c main_v11 : S1x64.Idx → EReal) :=
  whole_rect (V c main_v11) _ _ _ (bix5 t)

theorem hid_eq : RowsOf (Cert.Spec.f_h1 (N := 10000) (V c main_arg1) (V c main_v14_1) (V c main_v14_0) (V c main_arg4) (V c main_v11)) (400 * t.val)
    (hid1 (iblk1 V c 0 t) (iblk1 V c 1 t) (iblk1 V c 2 t) (iblk1 V c 3 t) (iblk1 V c 4 t) (iblk1 V c 5 t)) := by
  unfold hid1
  simp only [View.ld_unit_zero (S := S200x10000) zero2, View.ld_unit_zero (S := S10000x128) zero2,
    View.ld_unit_zero (S := S400x128) zero2, View.ld_unit_zero (S := S128x64) zero2,
    View.ld_unit_zero (S := S1x64) zero2]
  rw [tableblk, weightblk, biasblk]
  exact hid_block _ _ _ _ _ _ _ _ _ (slab0 V c t) (slab1 V c t) (featblk V c t)

def pointOf {m : ℕ} (i : (⟨2, ![10000, m]⟩ : Shape).Idx) : Fin cfg1.N :=
  ⟨(i 0).val / 400, by
    have h : (i 0).val < 10000 := idx2_lt0 i
    show (i 0).val / 400 < grid1.N
    rw [N_1]; omega⟩

end Blocks

end Region1

section Finals
variable (V : (c : Dev nD) → (b : Ref sig .tc) → Buf (Elt Ideal) ((c : Thread nD τ).loc b))
open Region1

theorem final1_6 (c : Dev nD) :
    ((dat1 (F := Ideal) V c).arrAt 6 cfg1.N : S10000x10000.Idx → EReal) = (V c main_arg1 : S10000x10000.Idx → EReal) :=
  (dat1 (F := Ideal) V c).arrAt_eq_of_cover 6 _ (fun t _ => by
    show (cfg1.win 6).cut (grid1.coords t) ((dat1 V c).after 6 t) = _
    rw [after1_6]
    unfold out1_6
    rw [View.canon_unit_zero zero2]
    simp only [View.ld_unit_zero (S := S200x10000) zero2]
    funext j
    exact (rows_block _ _ _ _ (slab0 V c t) (slab1 V c t)).at_rect _ _ _ (bix6 t) (s := 400) rfl (by omega) j)
    fun i => ⟨pointOf i, flush1_6 _, by
      show i ∈ ((View.whole main_v15_0).slice (win1_6.rect (pointOf i))).set
      rw [View.set_slice_whole]
      exact mem_rowBlock 400 (by decide) _ _ _ i (bix6 _).1 (bix6 _).2 rfl rfl rfl⟩

theorem final1_7 (c : Dev nD) :
    ((dat1 (F := Ideal) V c).arrAt 7 cfg1.N : S10000x64.Idx → EReal)
      = Cert.Spec.f_h1 (N := 10000) (V c main_arg1) (V c main_v14_1) (V c main_v14_0) (V c main_arg4) (V c main_v11) :=
  (dat1 (F := Ideal) V c).arrAt_eq_of_cover 7 _ (fun t _ => by
    show (cfg1.win 7).cut (grid1.coords t) ((dat1 V c).after 7 t) = _
    rw [after1_7]
    unfold out1_7
    rw [View.canon_unit_zero zero2]
    funext j
    exact (hid_eq V c t).at_rect _ _ _ (bix7 t) (s := 400) rfl (by omega) j)
    fun i => ⟨pointOf i, flush1_7 _, by
      show i ∈ ((View.whole main_v15_1).slice (win1_7.rect (pointOf i))).set
      rw [View.set_slice_whole]
      exact mem_rowBlock 400 (by decide) _ _ _ i (bix7 _).1 (bix7 _).2 rfl rfl rfl⟩

theorem final1_8 (c : Dev nD) :
    ((dat1 (F := Ideal) V c).arrAt 8 cfg1.N : S10000x64.Idx → EReal)
      = Cert.Spec.f_h1 (N := 10000) (V c main_arg1) (V c main_v14_1) (V c main_v14_0) (V c main_arg4) (V c main_v11) :=
  (dat1 (F := Ideal) V c).arrAt_eq_of_cover 8 _ (fun t _ => by
    show (cfg1.win 8).cut (grid1.coords t) ((dat1 V c).after 8 t) = _
    rw [after1_8]
    unfold out1_8
    rw [View.canon_unit_zero zero2]
    funext j
    exact (hid_eq V c t).at_rect _ _ _ (bix8 t) (s := 400) rfl (by omega) j)
    fun i => ⟨pointOf i, flush1_8 _, by
      show i ∈ ((View.whole main_v15_2).slice (win1_8.rect (pointOf i))).set
      rw [View.set_slice_whole]
      exact mem_rowBlock 400 (by decide) _ _ _ i (bix8 _).1 (bix8 _).2 rfl rfl rfl⟩

theorem final1_9 (c : Dev nD) :
    ((dat1 (F := Ideal) V c).arrAt 9 cfg1.N : S10000x1.Idx → EReal)
      = Cert.Spec.f_invd (N := 10000) (V c main_arg1) (V c main_v14_1) :=
  (dat1 (F := Ideal) V c).arrAt_eq_of_cover 9 _ (fun t _ => by
    show (cfg1.win 9).cut (grid1.coords t) ((dat1 V c).after 9 t) = _
    rw [after1_9]
    unfold out1_9
    rw [View.canon_unit_zero zero2]
    simp only [View.ld_unit_zero (S := S200x10000) zero2, View.ld_unit_zero (S := S10000x128) zero2]
    rw [tableblk]
    funext j
    exact (invd_block _ _ _ _ _ (slab0 V c t) (slab1 V c t)).at_rect _ _ _ (bix9 t) (s := 400) rfl (by omega) j)
    fun i => ⟨pointOf i, flush1_9 _, by
      show i ∈ ((View.whole main_v15_3).slice (win1_9.rect (pointOf i))).set
      rw [View.set_slice_whole]
      exact mem_rowBlock 400 (by decide) _ _ _ i (bix9 _).1 (bix9 _).2 rfl rfl rfl⟩

end Finals

end Cert.KernelIdeal.Hand

end
-- ==== Proof.LibStack.lean ====
import proofs.«103105_g78589311582291_cont_9to1_m_296_15_alg».proof.Proof.LibValue

namespace Cert.Hand

open Idealize.ShloMosaic Idealize.ShloMosaic.ValueIdx

-- `N` pieces of `K` rows each, stacked along the rows: row `p` of the stack is row `p % K` of piece `p / K`.
theorem stack_rows {K m M N : ℕ} {α : Type} (f : Fin N → ((⟨2, ![K, m]⟩ : Shape).Idx → α))
    (h : Shape.Concatenates ((List.ofFn fun n : Fin N => (⟨⟨2, ![K, m]⟩, f n⟩ : (s : Shape) × (s.Idx → α))).map (·.1)) ⟨2, ![M, m]⟩ 0)
    (p : Fin M) (l : Fin m) (n : Fin N) (r : Fin K) (hn : p.val / K = n.val) (hr : r.val = p.val % K) :
    concatenate ⟨2, ![M, m]⟩ 0 (List.ofFn fun n : Fin N => ⟨⟨2, ![K, m]⟩, f n⟩) h (ix2 p l) = f n (ix2 r l) :=
  concatenate_ofFn_apply 0 f h rfl K rfl (ix2 p l) n hn (ix2 r l) hr
    (Fin.forall_fin_two.2 ⟨fun hne => absurd rfl hne, fun _ => rfl⟩)

theorem ld0 {Val : EltTy → Type} {a b : ℕ} {e : EltTy} (inb) (X : (⟨2, ![a, b]⟩ : Shape).Idx → Val e) :
    View.ld X (Rect.unit ![0, 0] (⟨2, ![a, b]⟩ : Shape).size inb) = X := View.ld_unit_zero zero2 inb X

end Cert.Hand
-- ==== Proof.KI.Pay2.lean ====
import proofs.«103105_g78589311582291_cont_9to1_m_296_15_alg».proof.Proof.Gen.KernelIdeal.Skeleton
import proofs.«103105_g78589311582291_cont_9to1_m_296_15_alg».proof.Proof.LibStack

namespace Cert.KernelIdeal.Hand.Region2

open Cert.KernelIdeal Cert.KernelIdeal.Gen Cert.Hand
open Idealize.ShloMosaic Idealize.ShloMosaic.ValueIdx
open scoped BigOperators

theorem pay1_apply (v28 : FVec Ideal S1000x128 .f32) (v29 : Vec Ideal S1x128 .f32) (p : Fin 1000) (q : Fin 128) :
    k2_pay1 (F := Ideal) v28 v29 (ix2 p q)
      = max (v28 (ix2 p q) + v29 (ix2 (0 : Fin 1) q)) (Ideal.ofBits .f32 0x00000000#32) := by
  unfold k2_pay1
  show max (v28 (ix2 p q) + broadcastTo S1000x128 (shapeCast S1x128 v29 shapeCasts_S1x128_S1x128) broadcasts_S1x128_S1000x128 (ix2 p q)) _ = _
  rw [broadcastTo_1b_ab_apply, shapeCast_self]
  rfl

-- Row `p = 200 n + r` of the five stacked slab products is row `r` of slab `n`'s product.
theorem pay3_apply (X : Fin 5 → Vec Ideal S200x10000 .bf16) (v0 : Vec Ideal S10000x64 .bf16) (v18 : Vec Ideal S1000x1 .f32)
    (v22 : Vec Ideal S1000x64 .f32) (v24 v26 : Vec Ideal S64x128 .f32) (p : Fin 1000) (q : Fin 128)
    (n : Fin 5) (r : Fin 200) (hn : p.val / 200 = n.val) (hr : r.val = p.val % 200) :
    k2_pay3 (F := Ideal) v0 (X 0) (X 1) (X 2) (X 3) (X 4) v18 v22 v24 v26 (ix2 p q)
      = (∑ l : Fin 64, v22 (ix2 p l) * v24 (ix2 l q))
        + ∑ l : Fin 64, ((∑ k : Fin 10000, X n (ix2 r k) * v0 (ix2 k l)) * v18 (ix2 p (0 : Fin 1))) * v26 (ix2 l q) := by
  have hc := stack_rows (fun k => matmul (φ₁ := .bf16) (φ₂ := .bf16) dot_S200x10000_S10000x64_S200x64_1_0_0_1_n_n none
    (shapeCast S200x10000 (X k) shapeCasts_S200x10000_S200x10000) (shapeCast S10000x64 v0 shapeCasts_S10000x64_S10000x64)
    (constant (F := Ideal) S200x64 .f32 0x00000000#32)) concatenates_S200x64_S200x64_S200x64_S200x64_S200x64_S1000x64_d0 p
  unfold k2_pay3
  simp only [shapeCast_self]
  refine (addf_apply _ _ _).trans (congrArg₂ (· + ·) (matmul_plain_at _ rfl _ _ p q)
    ((matmul_plain_at _ rfl _ _ p q).trans (Finset.sum_congr rfl fun l _ => congrArg (· * v26 (ix2 l q)) ?_)))
  refine (mulf_apply _ _ _).trans (congrArg₂ (· * ·)
    ((hc l n r hn hr).trans ((matmul_plain_at _ rfl _ _ r l).trans ?_)) (broadcastTo_a1_ab_apply _ _ p l))
  rw [shapeCast_self, shapeCast_self]

end Cert.KernelIdeal.Hand.Region2
-- ==== Proof.KI.Value2.lean ====
import proofs.«103105_g78589311582291_cont_9to1_m_296_15_alg».proof.Proof.KI.Body2
import proofs.«103105_g78589311582291_cont_9to1_m_296_15_alg».proof.Proof.KI.Pay2
import proofs.«103105_g78589311582291_cont_9to1_m_296_15_alg».proof.Proof.Spec

noncomputable section

namespace Cert.KernelIdeal.Hand

open Cert.KernelIdeal Cert.KernelIdeal.Gen Cert.Hand
open Idealize.ShloMosaic Idealize.ShloMosaic.TcCoe Idealize.ShloMosaic.ValueIdx Idealize.SL.Sem
open Idealize.ShloMosaic.Pipeline (Dat)
open scoped BigOperators

namespace Region2

variable (V : (c : Dev nD) → (b : Ref sig .tc) → Buf (Elt Ideal) ((c : Thread nD τ).loc b))

abbrev slabs (c : Dev nD) (t : Fin cfg2.N) : Fin 5 → Vec Ideal S200x10000 .bf16 := fun k => match k with
  | ⟨0, _⟩ => iblk2 V c 0 t
  | ⟨1, _⟩ => iblk2 V c 1 t
  | ⟨2, _⟩ => iblk2 V c 2 t
  | ⟨3, _⟩ => iblk2 V c 3 t
  | ⟨4, _⟩ => iblk2 V c 4 t

theorem idx_facts : ∀ t : Fin cfg2.N,
    (cfg2.win 0).index t (0 : Fin 2) = 5 * t.val + 0 ∧ (cfg2.win 0).index t (1 : Fin 2) = 0
    ∧ (cfg2.win 1).index t (0 : Fin 2) = 5 * t.val + 1 ∧ (cfg2.win 1).index t (1 : Fin 2) = 0
    ∧ (cfg2.win 2).index t (0 : Fin 2) = 5 * t.val + 2 ∧ (cfg2.win 2).index t (1 : Fin 2) = 0
    ∧ (cfg2.win 3).index t (0 : Fin 2) = 5 * t.val + 3 ∧ (cfg2.win 3).index t (1 : Fin 2) = 0
    ∧ (cfg2.win 4).index t (0 : Fin 2) = 5 * t.val + 4 ∧ (cfg2.win 4).index t (1 : Fin 2) = 0
    ∧ (cfg2.win 5).index t (0 : Fin 2) = 0 ∧ (cfg2.win 5).index t (1 : Fin 2) = 0
    ∧ (cfg2.win 6).index t (0 : Fin 2) = t.val ∧ (cfg2.win 6).index t (1 : Fin 2) = 0
    ∧ (cfg2.win 7).index t (0 : Fin 2) = t.val ∧ (cfg2.win 7).index t (1 : Fin 2) = 0
    ∧ (cfg2.win 8).index t (0 : Fin 2) = 0 ∧ (cfg2.win 8).index t (1 : Fin 2) = 0
    ∧ (cfg2.win 9).index t (0 : Fin 2) = 0 ∧ (cfg2.win 9).index t (1 : Fin 2) = 0
    ∧ (cfg2.win 10).index t (0 : Fin 2) = 0 ∧ (cfg2.win 10).index t (1 : Fin 2) = 0
    ∧ (cfg2.win 11).index t (0 : Fin 2) = 0 ∧ (cfg2.win 11).index t (1 : Fin 2) = 0
    ∧ (cfg2.win 12).index t (0 : Fin 2) = t.val ∧ (cfg2.win 12).index t (1 : Fin 2) = 0
    ∧ (cfg2.win 13).index t (0 : Fin 2) = t.val ∧ (cfg2.win 13).index t (1 : Fin 2) = 0 :=
  (by decide +kernel : ∀ t : Fin grid2.N, _)

-- Row `r` of slab `k` at point `t` is row `1000 t + 200 k + r` of the square matrix.
theorem rd_slab (c : Dev nD) (t : Fin cfg2.N) (k : ℕ) (hk : k < 5) (r : Fin 200) (l : Fin 10000) (R : Fin 10000)
    (hR : R.val = 1000 * t.val + 200 * k + r.val) : slabs V c t ⟨k, hk⟩ (ix2 r l) = V c main_v15_0 (ix2 R l) := by
  have e := idx_facts t
  match k, hk with
  | 0, _ | 1, _ | 2, _ | 3, _ | 4, _ =>
    refine congrArg (V c main_v15_0) (Shape.idx_ext₂ (?_ : _ * 200 + 1 * r.val = R.val) (?_ : _ * 10000 + 1 * l.val = l.val)) <;> omega

-- Row `p` of a 1000-row window at point `t` is row `1000 t + p` of its array.
theorem rd6 (c : Dev nD) (t : Fin cfg2.N) (p : Fin 1000) (R : Fin 10000) (hR : R.val = 1000 * t.val + p.val) (l : Fin 64) :
    (iblk2 V c 6 t : Vec Ideal S1000x64 .f32) (ix2 p l) = V c main_v15_1 (ix2 R l) := by
  have e := idx_facts t
  refine congrArg (V c main_v15_1) (Shape.idx_ext₂ (?_ : _ * 1000 + 1 * p.val = R.val) (?_ : _ * 64 + 1 * l.val = l.val)) <;> omega

theorem rd7 (c : Dev nD) (t : Fin cfg2.N) (p : Fin 1000) (R : Fin 10000) (hR : R.val = 1000 * t.val + p.val) (l : Fin 1) :
    (iblk2 V c 7 t : Vec Ideal S1000x1 .f32) (ix2 p l) = V c main_v15_3 (ix2 R l) := by
  have e := idx_facts t
  refine congrArg (V c main_v15_3) (Shape.idx_ext₂ (?_ : _ * 1000 + 1 * p.val = R.val) (?_ : _ * 1 + 1 * l.val = l.val)) <;> omega

theorem rd5 (c : Dev nD) (t : Fin cfg2.N) : (iblk2 V c 5 t : Vec Ideal S10000x64 .bf16) = V c main_v15_2 := by
  have e := idx_facts t
  exact whole_rect (V c main_v15_2) _ _ _ ⟨by omega, by omega⟩

theorem rd8 (c : Dev nD) (t : Fin cfg2.N) : (iblk2 V c 8 t : Vec Ideal S64x128 .f32) = V c main_arg7 := by
  have e := idx_facts t
  exact whole_rect (V c main_arg7) _ _ _ ⟨by omega, by omega⟩

theorem rd9 (c : Dev nD) (t : Fin cfg2.N) : (iblk2 V c 9 t : Vec Ideal S64x128 .f32) = V c main_arg8 := by
  have e := idx_facts t
  exact whole_rect (V c main_arg8) _ _ _ ⟨by omega, by omega⟩

theorem rd10 (c : Dev nD) (t : Fin cfg2.N) : (iblk2 V c 10 t : Vec Ideal S1x128 .f32) = V c main_v12 := by
  have e := idx_facts t
  exact whole_rect (V c main_v12) _ _ _ ⟨by omega, by omega⟩

theorem rd11 (c : Dev nD) (t : Fin cfg2.N) : (iblk2 V c 11 t : Vec Ideal S128x40 .f32) = V c main_v9 := by
  have e := idx_facts t
  exact whole_rect (V c main_v9) _ _ _ ⟨by omega, by omega⟩

abbrev G12 (c : Dev nD) : Cert.Spec.Mat 10000 128 :=
  Cert.Spec.f_h2 (N := 10000) (V c main_v15_0) (V c main_v15_2) (V c main_v15_1) (V c main_v15_3) (V c main_arg7) (V c main_arg8) (V c main_v12)
abbrev G13 (c : Dev nD) : Cert.Spec.Mat 10000 40 := Cert.Spec.f_g3 (N := 10000) (G12 V c) (V c main_v9)

-- Entry `(p, q)` of the first stored value at point `t` is entry `(1000 t + p, q)` of the layer formula.
theorem entry12 (c : Dev nD) (t : Fin cfg2.N) : RowsOf (G12 V c) (1000 * t.val) (k2_pay1 (F := Ideal) (k2_pay3 (F := Ideal) (iblk2 V c 5 t)
    (iblk2 V c 0 t) (iblk2 V c 1 t) (iblk2 V c 2 t) (iblk2 V c 3 t) (iblk2 V c 4 t) (iblk2 V c 7 t) (iblk2 V c 6 t) (iblk2 V c 8 t) (iblk2 V c 9 t))
    (iblk2 V c 10 t)) := by
  intro p q R hR
  have hp := p.isLt
  obtain ⟨n, hn⟩ : ∃ n : Fin 5, p.val / 200 = n.val := ⟨⟨_, by omega⟩, rfl⟩
  obtain ⟨r, hr⟩ : ∃ r : Fin 200, r.val = p.val % 200 := ⟨⟨_, Nat.mod_lt _ (by decide)⟩, rfl⟩
  have es : ∀ l, slabs V c t n (ix2 r l) = V c main_v15_0 (ix2 R l) := fun l => rd_slab V c t n.val n.isLt r l R (by omega)
  rw [pay1_apply]
  refine (congrArg (fun z => max (z + _) _) (pay3_apply (slabs V c t) _ _ _ _ _ p q n r hn hr)).trans ?_
  simp only [rd5, rd8, rd9, rd10, rd6 V c t p R hR, rd7 V c t p R hR, es]
  rfl

theorem flushed12_eq (c : Dev nD) (t : Fin cfg2.N) :
    (dat2 (F := Ideal) V c).flushed 12 t = ((cfg2.win 12).blk t).view.read (Elt Ideal) (G12 V c) := by
  have e := idx_facts t
  show (cfg2.win 12).cut (grid2.coords t) ((dat2 (F := Ideal) V c).after 12 t) = _
  rw [after2_12]
  unfold out2_12
  rw [View.canon_unit_zero zero2]
  simp only [ld0]
  exact funext ((entry12 V c t).at_rect ((cfg2.win 12).index t) _ _ (k := t.val) ⟨by omega, by omega⟩ (s := 1000) rfl (by omega))

-- The second stored value is the first times the last matrix, row by row.
theorem flushed13_eq (c : Dev nD) (t : Fin cfg2.N) :
    (dat2 (F := Ideal) V c).flushed 13 t = ((cfg2.win 13).blk t).view.read (Elt Ideal) (G13 V c) := by
  have e := idx_facts t
  show (cfg2.win 13).cut (grid2.coords t) ((dat2 (F := Ideal) V c).after 13 t) = _
  rw [after2_13]
  unfold out2_13 k2_pay2
  rw [View.canon_unit_zero zero2]
  simp only [ld0, shapeCast_self, rd11]
  exact funext ((RowsOf.matmul (φ₂ := .f32) dot_S1000x128_S128x40_S1000x40_1_0_0_1_n_n rfl (V c main_v9) (entry12 V c t)).at_rect ((cfg2.win 13).index t) _ _
    (k := t.val) ⟨by omega, by omega⟩ (s := 1000) rfl (by omega))

-- Row `r` is in the block of point `r / 1000`: the ten blocks tile the rows.
theorem cover12 (i : S10000x128.Idx) : ∃ t : Fin cfg2.N, (cfg2.win 12).flush t = true ∧ i ∈ ((cfg2.win 12).blk t).view.set := by
  have hi := idx2_lt0 i
  obtain ⟨t, ht⟩ : ∃ t : Fin cfg2.N, t.val = (i 0).val / 1000 := ⟨⟨(i 0).val / 1000, by rw [show cfg2.N = 10 from N_2]; omega⟩, rfl⟩
  have e := idx_facts t
  refine ⟨t, flush2_12 t, ?_⟩
  show i ∈ ((View.whole main_v16_0).slice ((cfg2.win 12).rect t)).set
  rw [View.set_slice_whole]
  exact mem_rowBlock 1000 (by decide) _ _ _ i (by omega) (by omega) rfl rfl rfl

theorem cover13 (i : S10000x40.Idx) : ∃ t : Fin cfg2.N, (cfg2.win 13).flush t = true ∧ i ∈ ((cfg2.win 13).blk t).view.set := by
  have hi := idx2_lt0 i
  obtain ⟨t, ht⟩ : ∃ t : Fin cfg2.N, t.val = (i 0).val / 1000 := ⟨⟨(i 0).val / 1000, by rw [show cfg2.N = 10 from N_2]; omega⟩, rfl⟩
  have e := idx_facts t
  refine ⟨t, flush2_13 t, ?_⟩
  show i ∈ ((View.whole main_v16_1).slice ((cfg2.win 13).rect t)).set
  rw [View.set_slice_whole]
  exact mem_rowBlock 1000 (by decide) _ _ _ i (by omega) (by omega) rfl rfl rfl

end Region2

open Region2

variable (V : (c : Dev nD) → (b : Ref sig .tc) → Buf (Elt Ideal) ((c : Thread nD τ).loc b))

theorem final2_12 (c : Dev nD) : ((dat2 (F := Ideal) V c).arrAt 12 cfg2.N : S10000x128.Idx → EReal) = Cert.Spec.f_h2 (N := 10000) (V c main_v15_0) (V c main_v15_2) (V c main_v15_1) (V c main_v15_3) (V c main_arg7) (V c main_arg8) (V c main_v12) :=
  (dat2 (F := Ideal) V c).arrAt_eq_of_cover 12 (G12 V c) (fun t _ => flushed12_eq V c t) cover12

theorem final2_13 (c : Dev nD) : ((dat2 (F := Ideal) V c).arrAt 13 cfg2.N : S10000x40.Idx → EReal) = Cert.Spec.f_g3 (N := 10000) (Cert.Spec.f_h2 (V c main_v15_0) (V c main_v15_2) (V c main_v15_1) (V c main_v15_3) (V c main_arg7) (V c main_arg8) (V c main_v12)) (V c main_v9) :=
  (dat2 (F := Ideal) V c).arrAt_eq_of_cover 13 (G13 V c) (fun t _ => flushed13_eq V c t) cover13

end Cert.KernelIdeal.Hand
-- ==== Proof.KI.Value3.lean ====
import proofs.«103105_g78589311582291_cont_9to1_m_296_15_alg».proof.Proof.KI.Body3
import proofs.«103105_g78589311582291_cont_9to1_m_296_15_alg».proof.Proof.Spec
import proofs.«103105_g78589311582291_cont_9to1_m_296_15_alg».proof.Proof.LibValue
import proofs.«103105_g78589311582291_cont_9to1_m_296_15_alg».proof.Proof.LibStack

noncomputable section

namespace Cert.KernelIdeal.Hand

open Cert.KernelIdeal Cert.KernelIdeal.Gen Cert.Hand
open Idealize.ShloMosaic Idealize.ShloMosaic.TcCoe Idealize.ShloMosaic.ValueIdx Idealize.SL.Sem
open Idealize.ShloMosaic.Pipeline (Dat)
open scoped BigOperators

namespace Region3

-- Entry `(p, q)` of the stored value, `p = 200 n + r`: row `p` of the hidden block times the weight, plus row `r` of slab `n` times the features scaled by the column's entry of row `p`, plus the bias.
theorem pay_at (X : Fin 5 → Vec Ideal S200x10000 .bf16) (g : Vec Ideal S10000x40 .bf16) (hb : Vec Ideal S1000x128 .f32)
    (s : Vec Ideal S1000x1 .f32) (w : Vec Ideal S128x40 .f32) (b : Vec Ideal S1x40 .f32)
    (p : Fin 1000) (q : Fin 40) (n : Fin 5) (r : Fin 200) (hn : p.val / 200 = n.val) (hr : r.val = p.val % 200) :
    k3_pay1 (F := Ideal) g (X 0) (X 1) (X 2) (X 3) (X 4) hb w s b (ix2 p q)
      = ((∑ l : Fin 128, hb (ix2 p l) * w (ix2 l q)) + (∑ l : Fin 10000, X n (ix2 r l) * g (ix2 l q)) * s (ix2 p (0 : Fin 1)))
        + b (ix2 (0 : Fin 1) q) := by
  have hc := stack_rows (fun k => matmul (φ₁ := .bf16) (φ₂ := .bf16) dot_S200x10000_S10000x40_S200x40_1_0_0_1_n_n none
    (shapeCast S200x10000 (X k) shapeCasts_S200x10000_S200x10000) (shapeCast S10000x40 g shapeCasts_S10000x40_S10000x40)
    (constant (F := Ideal) S200x40 .f32 0x00000000#32)) concatenates_S200x40_S200x40_S200x40_S200x40_S200x40_S1000x40_d0 p q n r hn hr
  unfold k3_pay1
  refine (addf_apply _ _ _).trans (congrArg₂ (· + ·) ((addf_apply _ _ _).trans (congrArg₂ (· + ·) ?_
    ((mulf_apply _ _ _).trans (congrArg₂ (· * ·) (hc.trans ?_) ?_)))) ?_)
  · rw [matmul_plain_at dot_S1000x128_S128x40_S1000x40_1_0_0_1_n_n rfl, shapeCast_self]
  · rw [matmul_plain_at dot_S200x10000_S10000x40_S200x40_1_0_0_1_n_n rfl, shapeCast_self, shapeCast_self]
  · rw [broadcastTo_a1_ab_apply, shapeCast_self]
  · rw [broadcastTo_1b_ab_apply, shapeCast_self]

variable (V : (c : Dev nD) → (b : Ref sig .tc) → Buf (Elt Ideal) ((c : Thread nD τ).loc b))

abbrev slabs (c : Dev nD) (t : Fin cfg3.N) : Fin 5 → Vec Ideal S200x10000 .bf16 := fun k => match k with
  | ⟨0, _⟩ => iblk3 V c 0 t
  | ⟨1, _⟩ => iblk3 V c 1 t
  | ⟨2, _⟩ => iblk3 V c 2 t
  | ⟨3, _⟩ => iblk3 V c 3 t
  | ⟨4, _⟩ => iblk3 V c 4 t

abbrev outArr (c : Dev nD) : Cert.Spec.Mat 10000 40 :=
  Cert.Spec.f_out (N := 10000) (V c main_v15_0) (V c main_v16_1) (V c main_v16_0) (V c main_v15_3) (V c main_arg10) (V c main_v13)

theorem idx_facts : ∀ t : Fin cfg3.N,
    (cfg3.win 0).index t (0 : Fin 2) = 5 * t.val + 0 ∧ (cfg3.win 0).index t (1 : Fin 2) = 0
    ∧ (cfg3.win 1).index t (0 : Fin 2) = 5 * t.val + 1 ∧ (cfg3.win 1).index t (1 : Fin 2) = 0
    ∧ (cfg3.win 2).index t (0 : Fin 2) = 5 * t.val + 2 ∧ (cfg3.win 2).index t (1 : Fin 2) = 0
    ∧ (cfg3.win 3).index t (0 : Fin 2) = 5 * t.val + 3 ∧ (cfg3.win 3).index t (1 : Fin 2) = 0
    ∧ (cfg3.win 4).index t (0 : Fin 2) = 5 * t.val + 4 ∧ (cfg3.win 4).index t (1 : Fin 2) = 0
    ∧ (cfg3.win 5).index t (0 : Fin 2) = 0 ∧ (cfg3.win 5).index t (1 : Fin 2) = 0
    ∧ (cfg3.win 6).index t (0 : Fin 2) = t.val ∧ (cfg3.win 6).index t (1 : Fin 2) = 0
    ∧ (cfg3.win 7).index t (0 : Fin 2) = t.val ∧ (cfg3.win 7).index t (1 : Fin 2) = 0
    ∧ (cfg3.win 8).index t (0 : Fin 2) = 0 ∧ (cfg3.win 8).index t (1 : Fin 2) = 0
    ∧ (cfg3.win 9).index t (0 : Fin 2) = 0 ∧ (cfg3.win 9).index t (1 : Fin 2) = 0
    ∧ (cfg3.win 10).index t (0 : Fin 2) = t.val ∧ (cfg3.win 10).index t (1 : Fin 2) = 0 :=
  (by decide +kernel : ∀ t : Fin grid3.N, _)

-- Row `r` of slab `k` at point `t` is row `1000 t + 200 k + r` of the square matrix.
theorem rd_slab (c : Dev nD) (t : Fin cfg3.N) (k : ℕ) (hk : k < 5) (r : Fin 200) (l : Fin 10000) (R : Fin 10000)
    (hR : R.val = 1000 * t.val + 200 * k + r.val) : slabs V c t ⟨k, hk⟩ (ix2 r l) = V c main_v15_0 (ix2 R l) := by
  have e := idx_facts t
  match k, hk with
  | 0, _ | 1, _ | 2, _ | 3, _ | 4, _ =>
    refine congrArg (V c main_v15_0) (Shape.idx_ext₂ (?_ : _ * 200 + 1 * r.val = R.val) (?_ : _ * 10000 + 1 * l.val = l.val)) <;> omega

-- Row `p` of a 1000-row window at point `t` is row `1000 t + p` of its array.
theorem rd6 (c : Dev nD) (t : Fin cfg3.N) (p : Fin 1000) (R : Fin 10000) (hR : R.val = 1000 * t.val + p.val) (l : Fin 128) :
    (iblk3 V c 6 t : Vec Ideal S1000x128 .f32) (ix2 p l) = V c main_v16_0 (ix2 R l) := by
  have e := idx_facts t
  refine congrArg (V c main_v16_0) (Shape.idx_ext₂ (?_ : _ * 1000 + 1 * p.val = R.val) (?_ : _ * 128 + 1 * l.val = l.val)) <;> omega

theorem rd7 (c : Dev nD) (t : Fin cfg3.N) (p : Fin 1000) (R : Fin 10000) (hR : R.val = 1000 * t.val + p.val) (l : Fin 1) :
    (iblk3 V c 7 t : Vec Ideal S1000x1 .f32) (ix2 p l) = V c main_v15_3 (ix2 R l) := by
  have e := idx_facts t
  refine congrArg (V c main_v15_3) (Shape.idx_ext₂ (?_ : _ * 1000 + 1 * p.val = R.val) (?_ : _ * 1 + 1 * l.val = l.val)) <;> omega

theorem rd5 (c : Dev nD) (t : Fin cfg3.N) : (iblk3 V c 5 t : Vec Ideal S10000x40 .bf16) = V c main_v16_1 := by
  have e := idx_facts t
  exact whole_rect (V c main_v16_1) _ _ _ ⟨by omega, by omega⟩

theorem rd8 (c : Dev nD) (t : Fin cfg3.N) : (iblk3 V c 8 t : Vec Ideal S128x40 .f32) = V c main_arg10 := by
  have e := idx_facts t
  exact whole_rect (V c main_arg10) _ _ _ ⟨by omega, by omega⟩

theorem rd9 (c : Dev nD) (t : Fin cfg3.N) : (iblk3 V c 9 t : Vec Ideal S1x40 .f32) = V c main_v13 := by
  have e := idx_facts t
  exact whole_rect (V c main_v13) _ _ _ ⟨by omega, by omega⟩

-- Entry `(p, q)` of the stored value at point `t` is entry `(1000 t + p, q)` of the last stage.
theorem entry (c : Dev nD) (t : Fin cfg3.N) : RowsOf (outArr V c) (1000 * t.val) (k3_pay1 (F := Ideal) (iblk3 V c 5 t) (iblk3 V c 0 t)
    (iblk3 V c 1 t) (iblk3 V c 2 t) (iblk3 V c 3 t) (iblk3 V c 4 t) (iblk3 V c 6 t) (iblk3 V c 8 t) (iblk3 V c 7 t) (iblk3 V c 9 t)) := by
  intro p q R hR
  have hp := p.isLt
  obtain ⟨n, hn⟩ : ∃ n : Fin 5, p.val / 200 = n.val := ⟨⟨_, by omega⟩, rfl⟩
  obtain ⟨r, hr⟩ : ∃ r : Fin 200, r.val = p.val % 200 := ⟨⟨_, Nat.mod_lt _ (by decide)⟩, rfl⟩
  have es : ∀ l, slabs V c t n (ix2 r l) = V c main_v15_0 (ix2 R l) := fun l => rd_slab V c t n.val n.isLt r l R (by omega)
  refine (pay_at (slabs V c t) _ _ _ _ _ p q n r hn hr).trans ?_
  simp only [rd5, rd8, rd9, rd6 V c t p R hR, rd7 V c t p R hR, es]
  rfl

theorem flushed_eq (c : Dev nD) (t : Fin cfg3.N) :
    (dat3 (F := Ideal) V c).flushed 10 t = ((cfg3.win 10).blk t).view.read (Elt Ideal) (outArr V c) := by
  have e := idx_facts t
  show (cfg3.win 10).cut (grid3.coords t) ((dat3 V c).after 10 t) = _
  rw [after3_10]
  unfold out3_10
  rw [View.canon_unit_zero zero2]
  simp only [ld0]
  exact funext ((entry V c t).at_rect ((cfg3.win 10).index t) _ _ (k := t.val) ⟨by omega, by omega⟩ (s := 1000) rfl (by omega))

-- Row `r` is in the block of point `r / 1000`: the ten blocks tile the rows.
theorem cover (i : S10000x40.Idx) : ∃ t : Fin cfg3.N, (cfg3.win 10).flush t = true ∧ i ∈ ((cfg3.win 10).blk t).view.set := by
  have hi := idx2_lt0 i
  obtain ⟨t, ht⟩ : ∃ t : Fin cfg3.N, t.val = (i 0).val / 1000 := ⟨⟨(i 0).val / 1000, by rw [show cfg3.N = 10 from N_3]; omega⟩, rfl⟩
  have e := idx_facts t
  refine ⟨t, flush3_10 t, ?_⟩
  show i ∈ ((View.whole main_v17).slice ((cfg3.win 10).rect t)).set
  rw [View.set_slice_whole]
  exact mem_rowBlock 1000 (by decide) _ _ _ i (by omega) (by omega) rfl rfl rfl

end Region3

variable (V : (c : Dev nD) → (b : Ref sig .tc) → Buf (Elt Ideal) ((c : Thread nD τ).loc b))

theorem final3_10 (c : Dev nD) : ((dat3 (F := Ideal) V c).arrAt 10 cfg3.N : S10000x40.Idx → EReal)
    = Cert.Spec.f_out (N := 10000) (V c main_v15_0) (V c main_v16_1) (V c main_v16_0) (V c main_v15_3) (V c main_arg10) (V c main_v13) :=
  (dat3 V c).arrAt_eq_of_cover 10 (Region3.outArr V c) (fun t _ => Region3.flushed_eq V c t) Region3.cover

end Cert.KernelIdeal.Hand
-- ==== Proof.KI.Compose.lean ====
import proofs.«103105_g78589311582291_cont_9to1_m_296_15_alg».proof.Proof.KI.Vals
import proofs.«103105_g78589311582291_cont_9to1_m_296_15_alg».proof.Proof.KI.HostV
import proofs.«103105_g78589311582291_cont_9to1_m_296_15_alg».proof.Proof.KI.Value0
import proofs.«103105_g78589311582291_cont_9to1_m_296_15_alg».proof.Proof.KI.Value1
import proofs.«103105_g78589311582291_cont_9to1_m_296_15_alg».proof.Proof.KI.Value2
import proofs.«103105_g78589311582291_cont_9to1_m_296_15_alg».proof.Proof.KI.Value3
import proofs.«103105_g78589311582291_cont_9to1_m_296_15_alg».proof.Proof.Spec

noncomputable section

namespace Cert.KernelIdeal.Hand

open Cert.KernelIdeal Cert.KernelIdeal.Gen Idealize.ShloMosaic Idealize.ShloMosaic.TcCoe Cert.Spec

section Compose

variable (m : (ℓ : Loc nD τ sig) → Buf (Elt Ideal) ℓ) (c : Dev nD)

def s_h0 : Mat 10000 128 :=
  f_h0 (N := 10000) (m ((c.tc : Thread nD τ).loc main_arg0)) (m ((c.tc : Thread nD τ).loc main_arg2))
    (rowOf (m ((c.tc : Thread nD τ).loc main_arg3)))

def s_gp : Mat 10000 128 :=
  f_gp (N := 10000) (s_h0 m c) (padCols 128 (m ((c.tc : Thread nD τ).loc main_arg5))) (unitRow 64)

def s_invd : Mat 10000 1 :=
  f_invd (N := 10000) (m ((c.tc : Thread nD τ).loc main_arg1)) (s_gp m c)

def s_h1 : Mat 10000 64 :=
  f_h1 (N := 10000) (m ((c.tc : Thread nD τ).loc main_arg1)) (s_gp m c) (s_h0 m c)
    (m ((c.tc : Thread nD τ).loc main_arg4)) (rowOf (m ((c.tc : Thread nD τ).loc main_arg6)))

def s_h2 : Mat 10000 128 :=
  f_h2 (N := 10000) (m ((c.tc : Thread nD τ).loc main_arg1)) (s_h1 m c) (s_h1 m c) (s_invd m c)
    (m ((c.tc : Thread nD τ).loc main_arg7)) (m ((c.tc : Thread nD τ).loc main_arg8))
    (rowOf (m ((c.tc : Thread nD τ).loc main_arg9)))

-- The fused computation of the thirteen launch arrays of core c.
abbrev fusedOf : Mat 10000 40 :=
  fused (N := 10000) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

theorem fused_stages :
    fusedOf m c
      = f_out (N := 10000) (m ((c.tc : Thread nD τ).loc main_arg1))
          (f_g3 (s_h2 m c) (m ((c.tc : Thread nD τ).loc main_arg11))) (s_h2 m c) (s_invd m c)
          (m ((c.tc : Thread nD τ).loc main_arg10)) (rowOf (m ((c.tc : Thread nD τ).loc main_arg12))) := rfl

theorem e1_arg (r : Ref sig .tc) (h : r ∉ Gen.hostOps0_W) : V1 m c r = m ((c.tc : Thread nD τ).loc r) := host_kept m c r h
theorem e1_v2 : (V1 m c main_v2 : S128x128.Idx → EReal) = padCols 128 (m ((c.tc : Thread nD τ).loc main_arg5)) := host_v2 m c
theorem e1_v7 : (V1 m c main_v7 : S1x128.Idx → EReal) = unitRow 64 := host_v7 m c
theorem e1_v9 : (V1 m c main_v9 : S128x40.Idx → EReal) = m ((c.tc : Thread nD τ).loc main_arg11) := host_v9 m c
theorem e1_v10 : (V1 m c main_v10 : S1x128.Idx → EReal) = rowOf (m ((c.tc : Thread nD τ).loc main_arg3)) := host_v10 m c
theorem e1_v11 : (V1 m c main_v11 : S1x64.Idx → EReal) = rowOf (m ((c.tc : Thread nD τ).loc main_arg6)) := host_v11 m c
theorem e1_v12 : (V1 m c main_v12 : S1x128.Idx → EReal) = rowOf (m ((c.tc : Thread nD τ).loc main_arg9)) := host_v12 m c
theorem e1_v13 : (V1 m c main_v13 : S1x40.Idx → EReal) = rowOf (m ((c.tc : Thread nD τ).loc main_arg12)) := host_v13 m c

-- An array no region writes is, at every later boundary, what the first region found.
theorem carried (r : Ref sig .tc) (h : r ∉ ([main_v14_0, main_v14_1] : List (Ref sig .tc))
      ∧ r ∉ ([main_v15_0, main_v15_1, main_v15_2, main_v15_3] : List (Ref sig .tc)) ∧ r ∉ ([main_v16_0, main_v16_1] : List (Ref sig .tc))) :
    V2 m c r = V1 m c r ∧ V3 m c r = V1 m c r ∧ V4 m c r = V1 m c r :=
  have e2 := W2_of m c r h.1
  have e3 := (W3_of m c r h.2.1).trans e2
  ⟨e2, e3, (W4_of m c r h.2.2).trans e3⟩

theorem e2_v14_0 : (V2 m c main_v14_0 : S10000x128.Idx → EReal) = s_h0 m c := by
  refine (W2_main_v14_0 m c).trans ((final0_5 (V1 m) c).trans ?_)
  rw [e1_arg m c main_arg0 (by decide), e1_arg m c main_arg2 (by decide), e1_v10 m c]; rfl
theorem e2_v14_1 : (V2 m c main_v14_1 : S10000x128.Idx → EReal) = s_gp m c := by
  refine (W2_main_v14_1 m c).trans ((final0_6 (V1 m) c).trans ?_)
  rw [e1_arg m c main_arg0 (by decide), e1_arg m c main_arg2 (by decide), e1_v10 m c, e1_v2 m c, e1_v7 m c]; rfl

theorem e2_arg1 : V2 m c main_arg1 = m ((c.tc : Thread nD τ).loc main_arg1) :=
  (carried m c main_arg1 (by decide)).1.trans (e1_arg m c main_arg1 (by decide))
theorem e3_v15_0 : (V3 m c main_v15_0 : S10000x10000.Idx → EReal) = m ((c.tc : Thread nD τ).loc main_arg1) :=
  (W3_main_v15_0 m c).trans ((final1_6 (V2 m) c).trans (e2_arg1 m c))
theorem h1_at : f_h1 (N := 10000) (V2 m c main_arg1) (V2 m c main_v14_1) (V2 m c main_v14_0) (V2 m c main_arg4) (V2 m c main_v11) = s_h1 m c := by
  rw [e2_arg1 m c, e2_v14_1 m c, e2_v14_0 m c, (carried m c main_arg4 (by decide)).1, e1_arg m c main_arg4 (by decide),
    (carried m c main_v11 (by decide)).1, e1_v11 m c]; rfl
theorem e3_v15_1 : (V3 m c main_v15_1 : S10000x64.Idx → EReal) = s_h1 m c :=
  (W3_main_v15_1 m c).trans ((final1_7 (V2 m) c).trans (h1_at m c))
theorem e3_v15_2 : (V3 m c main_v15_2 : S10000x64.Idx → EReal) = s_h1 m c :=
  (W3_main_v15_2 m c).trans ((final1_8 (V2 m) c).trans (h1_at m c))
theorem e3_v15_3 : (V3 m c main_v15_3 : S10000x1.Idx → EReal) = s_invd m c := by
  refine (W3_main_v15_3 m c).trans ((final1_9 (V2 m) c).trans ?_)
  rw [e2_arg1 m c, e2_v14_1 m c]; rfl

theorem h2_at : f_h2 (N := 10000) (V3 m c main_v15_0) (V3 m c main_v15_2) (V3 m c main_v15_1) (V3 m c main_v15_3) (V3 m c main_arg7) (V3 m c main_arg8) (V3 m c main_v12) = s_h2 m c := by
  rw [e3_v15_0 m c, e3_v15_2 m c, e3_v15_1 m c, e3_v15_3 m c, (carried m c main_arg7 (by decide)).2.1, e1_arg m c main_arg7 (by decide),
    (carried m c main_arg8 (by decide)).2.1, e1_arg m c main_arg8 (by decide), (carried m c main_v12 (by decide)).2.1, e1_v12 m c]; rfl
theorem e4_v16_0 : (V4 m c main_v16_0 : S10000x128.Idx → EReal) = s_h2 m c :=
  (W4_main_v16_0 m c).trans ((final2_12 (V3 m) c).trans (h2_at m c))
theorem e4_v16_1 : (V4 m c main_v16_1 : S10000x40.Idx → EReal)
    = f_g3 (N := 10000) (s_h2 m c) (m ((c.tc : Thread nD τ).loc main_arg11)) := by
  refine (W4_main_v16_1 m c).trans ((final2_13 (V3 m) c).trans ?_)
  rw [h2_at m c, (carried m c main_v9 (by decide)).2.1, e1_v9 m c]
theorem e4_v15_0 : (V4 m c main_v15_0 : S10000x10000.Idx → EReal) = m ((c.tc : Thread nD τ).loc main_arg1) :=
  (W4_of m c main_v15_0 (by decide)).trans (e3_v15_0 m c)
theorem e4_v15_3 : (V4 m c main_v15_3 : S10000x1.Idx → EReal) = s_invd m c :=
  (W4_of m c main_v15_3 (by decide)).trans (e3_v15_3 m c)

-- Following each array a region reads back to the launch arrays, the last region's output is the fused computation.
theorem kernel_value :
    ((dat3 (F := Ideal) (V4 m) c).arrAt 10 cfg3.N : S10000x40.Idx → EReal)
      = fusedOf m c := by
  refine (final3_10 (V4 m) c).trans ?_
  rw [e4_v15_0 m c, e4_v16_1 m c, e4_v16_0 m c, e4_v15_3 m c,
    (carried m c main_arg10 (by decide)).2.2, e1_arg m c main_arg10 (by decide), (carried m c main_v13 (by decide)).2.2, e1_v13 m c]
  exact (fused_stages m c).symm

end Compose

end Cert.KernelIdeal.Hand

end
-- ==== Proof.RefValue.lean ====
import proofs.«103105_g78589311582291_cont_9to1_m_296_15_alg».proof.Proof.Gen.ReferenceIdeal.Read
import proofs.«103105_g78589311582291_cont_9to1_m_296_15_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx Cert.Spec
open Cert.ReferenceIdeal.Read
open scoped BigOperators

abbrev Arr (S : Shape) : Type := (⟨S, .f32⟩ : BufTy).Contents (Elt Ideal)

theorem d_sage_ix {N a b : ℕ} (adj : Mat N N) (deg : Mat N 1) (h : Mat N a) (Wl Wr : Mat a b) (bias : Row b)
    (p : Fin N) (q : Fin b) :
    d_sage adj deg h Wl Wr bias (ix2 p q)
      = (∑ l : Fin a, h (ix2 p l) * Wl (ix2 l q)
          + ∑ l : Fin a, Ideal.div (∑ l' : Fin N, adj (ix2 p l') * h (ix2 l' l)) (deg (ix2 p (0 : Fin 1))) * Wr (ix2 l q))
        + bias (ix1 q) := rfl

theorem addVec_mm_ix {n k m : ℕ} (A : Mat n k) (B : Mat k m) (bias : Row m) (p : Fin n) (q : Fin m) :
    addVec (mm A B) bias (ix2 p q) = ∑ l : Fin k, A (ix2 p l) * B (ix2 l q) + bias (ix1 q) := rfl

theorem relu_ix {n m : ℕ} (A : Mat n m) (j : (⟨2, ![n, m]⟩ : Shape).Idx) :
    relu A j = max (A j) (Ideal.ofBits .f32 0x00000000#32) := rfl

theorem idx_v0 (j : S10000x1.Idx) (k : Fin 10000) :
    idx_main_v0 (idx_main_v1 j) k = ix2 (n0 := 10000) (n1 := 10000) (j 0) k :=
  eq_ix2 _

theorem deg_eq (x1 : Arr S10000x10000) :
    val_main_v2 (F := Ideal) x1 = d_deg (N := 10000) x1 := by
  funext j
  rw [val_main_v2_apply, val_main_call0_v1_apply, val_main_call0_v0_apply, val_main_cst_0_apply,
    val_main_v1_apply, val_main_v0_apply, val_main_cst_apply]
  simp only [Ideal.maximumf_def, Ideal.ofBits_def, idx_v0]
  unfold d_deg Cert.Spec.zero Cert.Spec.floor
  exact max_comm _ _

theorem idx_v8 (p : Fin 10000) (q : Fin 128) :
    idx_main_v8 (ix2 p q) = ix2 (n0 := 10000) (n1 := 1) p (0 : Fin 1) :=
  eq_ix2 _
theorem idx_v18 (p : Fin 10000) (q : Fin 64) :
    idx_main_v18 (ix2 p q) = ix2 (n0 := 10000) (n1 := 1) p (0 : Fin 1) :=
  eq_ix2 _
theorem idx_v28 (p : Fin 10000) (q : Fin 128) :
    idx_main_v28 (ix2 p q) = ix2 (n0 := 10000) (n1 := 1) p (0 : Fin 1) :=
  eq_ix2 _

theorem lidx_v3 (p : Fin 10000) (q : Fin 128) (k : Fin 128) :
    lidx_main_v3 (ix2 p q) k = ix2 (n0 := 10000) (n1 := 128) p k :=
  eq_ix2 _
theorem ridx_v3 (p : Fin 10000) (q : Fin 128) (k : Fin 128) :
    ridx_main_v3 (ix2 p q) k = ix2 (n0 := 128) (n1 := 128) k q :=
  eq_ix2 _

theorem idx_v5 (p : Fin 10000) (q : Fin 128) :
    idx_main_v4 (idx_main_v5 (ix2 p q)) = ix1 (n := 128) q :=
  eq_ix1 _

theorem h0_eq (x0 : Arr S10000x128) (x2 : Arr S128x128) (x3 : Arr S128) :
    val_main_v6 (F := Ideal) x0 x2 x3 = addVec (mm (n := 10000) (k := 128) (m := 128) x0 x2) x3 := by
  funext i
  obtain ⟨p, q, rfl⟩ : ∃ (p : Fin 10000) (q : Fin 128), i = ix2 p q := ⟨i 0, i 1, eq_ix2 i⟩
  rw [addVec_mm_ix]
  simp only [val_main_v6_apply, val_main_v3_apply, val_main_v5_apply, val_main_v4_apply, Ideal.addf_def,
    lidx_v3, ridx_v3, idx_v5]

theorem lidx_v7 (p : Fin 10000) (q : Fin 128) (k : Fin 10000) :
    lidx_main_v7 (ix2 p q) k = ix2 (n0 := 10000) (n1 := 10000) p k :=
  eq_ix2 _
theorem ridx_v7 (p : Fin 10000) (q : Fin 128) (k : Fin 10000) :
    ridx_main_v7 (ix2 p q) k = ix2 (n0 := 10000) (n1 := 128) k q :=
  eq_ix2 _
theorem lidx_v10 (p : Fin 10000) (q : Fin 64) (k : Fin 128) :
    lidx_main_v10 (ix2 p q) k = ix2 (n0 := 10000) (n1 := 128) p k :=
  eq_ix2 _
theorem ridx_v10 (p : Fin 10000) (q : Fin 64) (k : Fin 128) :
    ridx_main_v10 (ix2 p q) k = ix2 (n0 := 128) (n1 := 64) k q :=
  eq_ix2 _
theorem lidx_v11 (p : Fin 10000) (q : Fin 64) (k : Fin 128) :
    lidx_main_v11 (ix2 p q) k = ix2 (n0 := 10000) (n1 := 128) p k :=
  eq_ix2 _
theorem ridx_v11 (p : Fin 10000) (q : Fin 64) (k : Fin 128) :
    ridx_main_v11 (ix2 p q) k = ix2 (n0 := 128) (n1 := 64) k q :=
  eq_ix2 _
theorem idx_v14 (p : Fin 10000) (q : Fin 64) :
    idx_main_v13 (idx_main_v14 (ix2 p q)) = ix1 (n := 64) q :=
  eq_ix1 _

theorem pre1_eq (x0 : Arr S10000x128) (x1 : Arr S10000x10000) (x2 : Arr S128x128) (x3 : Arr S128)
    (x4 x5 : Arr S128x64) (x6 : Arr S64) :
    val_main_v15 (F := Ideal) x0 x1 x2 x3 x4 x5 x6
      = d_sage (N := 10000) (a := 128) (b := 64) x1 (d_deg (N := 10000) x1) (val_main_v6 (F := Ideal) x0 x2 x3) x4 x5 x6 := by
  funext i
  obtain ⟨p, q, rfl⟩ : ∃ (p : Fin 10000) (q : Fin 64), i = ix2 p q := ⟨i 0, i 1, eq_ix2 i⟩
  rw [d_sage_ix]
  simp only [val_main_v15_apply, val_main_v12_apply, val_main_v14_apply, val_main_v13_apply, val_main_v10_apply,
    val_main_v11_apply, val_main_v9_apply, val_main_v7_apply, val_main_v8_apply, deg_eq,
    Ideal.addf_def, Ideal.hostDivf_def,
    lidx_v10, ridx_v10, lidx_v11, ridx_v11, lidx_v7, ridx_v7, idx_v8, idx_v14]

theorem h1_eq (x0 : Arr S10000x128) (x1 : Arr S10000x10000) (x2 : Arr S128x128) (x3 : Arr S128)
    (x4 x5 : Arr S128x64) (x6 : Arr S64) :
    val_main_v16 (F := Ideal) x0 x1 x2 x3 x4 x5 x6
      = relu (d_sage (N := 10000) (a := 128) (b := 64) x1 (d_deg (N := 10000) x1) (val_main_v6 (F := Ideal) x0 x2 x3) x4 x5 x6) := by
  funext i
  rw [relu_ix, val_main_v16_apply, val_main_call1_v0_apply, val_main_call1_cst_apply, pre1_eq]
  rfl

theorem lidx_v17 (p : Fin 10000) (q : Fin 64) (k : Fin 10000) :
    lidx_main_v17 (ix2 p q) k = ix2 (n0 := 10000) (n1 := 10000) p k :=
  eq_ix2 _
theorem ridx_v17 (p : Fin 10000) (q : Fin 64) (k : Fin 10000) :
    ridx_main_v17 (ix2 p q) k = ix2 (n0 := 10000) (n1 := 64) k q :=
  eq_ix2 _
theorem lidx_v20 (p : Fin 10000) (q : Fin 128) (k : Fin 64) :
    lidx_main_v20 (ix2 p q) k = ix2 (n0 := 10000) (n1 := 64) p k :=
  eq_ix2 _
theorem ridx_v20 (p : Fin 10000) (q : Fin 128) (k : Fin 64) :
    ridx_main_v20 (ix2 p q) k = ix2 (n0 := 64) (n1 := 128) k q :=
  eq_ix2 _
theorem lidx_v21 (p : Fin 10000) (q : Fin 128) (k : Fin 64) :
    lidx_main_v21 (ix2 p q) k = ix2 (n0 := 10000) (n1 := 64) p k :=
  eq_ix2 _
theorem ridx_v21 (p : Fin 10000) (q : Fin 128) (k : Fin 64) :
    ridx_main_v21 (ix2 p q) k = ix2 (n0 := 64) (n1 := 128) k q :=
  eq_ix2 _
theorem idx_v24 (p : Fin 10000) (q : Fin 128) :
    idx_main_v23 (idx_main_v24 (ix2 p q)) = ix1 (n := 128) q :=
  eq_ix1 _

theorem pre2_eq (x0 : Arr S10000x128) (x1 : Arr S10000x10000) (x2 : Arr S128x128) (x3 : Arr S128)
    (x4 x5 : Arr S128x64) (x6 : Arr S64) (x7 x8 : Arr S64x128) (x9 : Arr S128) :
    val_main_v25 (F := Ideal) x0 x1 x2 x3 x4 x5 x6 x7 x8 x9
      = d_sage (N := 10000) (a := 64) (b := 128) x1 (d_deg (N := 10000) x1)
          (val_main_v16 (F := Ideal) x0 x1 x2 x3 x4 x5 x6) x7 x8 x9 := by
  funext i
  obtain ⟨p, q, rfl⟩ : ∃ (p : Fin 10000) (q : Fin 128), i = ix2 p q := ⟨i 0, i 1, eq_ix2 i⟩
  rw [d_sage_ix]
  simp only [val_main_v25_apply, val_main_v22_apply, val_main_v24_apply, val_main_v23_apply, val_main_v20_apply,
    val_main_v21_apply, val_main_v19_apply, val_main_v17_apply, val_main_v18_apply, deg_eq,
    Ideal.addf_def, Ideal.hostDivf_def,
    lidx_v20, ridx_v20, lidx_v21, ridx_v21, lidx_v17, ridx_v17, idx_v18, idx_v24]

theorem h2_eq (x0 : Arr S10000x128) (x1 : Arr S10000x10000) (x2 : Arr S128x128) (x3 : Arr S128)
    (x4 x5 : Arr S128x64) (x6 : Arr S64) (x7 x8 : Arr S64x128) (x9 : Arr S128) :
    val_main_v26 (F := Ideal) x0 x1 x2 x3 x4 x5 x6 x7 x8 x9
      = relu (d_sage (N := 10000) (a := 64) (b := 128) x1 (d_deg (N := 10000) x1)
          (val_main_v16 (F := Ideal) x0 x1 x2 x3 x4 x5 x6) x7 x8 x9) := by
  funext i
  rw [relu_ix, val_main_v26_apply, val_main_call2_v0_apply, val_main_call2_cst_apply, pre2_eq]
  rfl

theorem lidx_v27 (p : Fin 10000) (q : Fin 128) (k : Fin 10000) :
    lidx_main_v27 (ix2 p q) k = ix2 (n0 := 10000) (n1 := 10000) p k :=
  eq_ix2 _
theorem ridx_v27 (p : Fin 10000) (q : Fin 128) (k : Fin 10000) :
    ridx_main_v27 (ix2 p q) k = ix2 (n0 := 10000) (n1 := 128) k q :=
  eq_ix2 _
theorem lidx_v30 (p : Fin 10000) (q : Fin 40) (k : Fin 128) :
    lidx_main_v30 (ix2 p q) k = ix2 (n0 := 10000) (n1 := 128) p k :=
  eq_ix2 _
theorem ridx_v30 (p : Fin 10000) (q : Fin 40) (k : Fin 128) :
    ridx_main_v30 (ix2 p q) k = ix2 (n0 := 128) (n1 := 40) k q :=
  eq_ix2 _
theorem lidx_v31 (p : Fin 10000) (q : Fin 40) (k : Fin 128) :
    lidx_main_v31 (ix2 p q) k = ix2 (n0 := 10000) (n1 := 128) p k :=
  eq_ix2 _
theorem ridx_v31 (p : Fin 10000) (q : Fin 40) (k : Fin 128) :
    ridx_main_v31 (ix2 p q) k = ix2 (n0 := 128) (n1 := 40) k q :=
  eq_ix2 _
theorem idx_v34 (p : Fin 10000) (q : Fin 40) :
    idx_main_v33 (idx_main_v34 (ix2 p q)) = ix1 (n := 40) q :=
  eq_ix1 _

theorem out_eq (x0 : Arr S10000x128) (x1 : Arr S10000x10000) (x2 : Arr S128x128) (x3 : Arr S128)
    (x4 x5 : Arr S128x64) (x6 : Arr S64) (x7 x8 : Arr S64x128) (x9 : Arr S128) (x10 x11 : Arr S128x40) (x12 : Arr S40) :
    val_main_v35 (F := Ideal) x0 x1 x2 x3 x4 x5 x6 x7 x8 x9 x10 x11 x12
      = d_sage (N := 10000) (a := 128) (b := 40) x1 (d_deg (N := 10000) x1)
          (val_main_v26 (F := Ideal) x0 x1 x2 x3 x4 x5 x6 x7 x8 x9) x10 x11 x12 := by
  funext i
  obtain ⟨p, q, rfl⟩ : ∃ (p : Fin 10000) (q : Fin 40), i = ix2 p q := ⟨i 0, i 1, eq_ix2 i⟩
  rw [d_sage_ix]
  simp only [val_main_v35_apply, val_main_v32_apply, val_main_v34_apply, val_main_v33_apply, val_main_v30_apply,
    val_main_v31_apply, val_main_v29_apply, val_main_v27_apply, val_main_v28_apply, deg_eq,
    Ideal.addf_def, Ideal.hostDivf_def,
    lidx_v30, ridx_v30, lidx_v31, ridx_v31, lidx_v27, ridx_v27, idx_v28, idx_v34]

-- The reference's operations, read stage by stage at an index, compose to the direct computation.
theorem val_eq_direct (x0 : Arr S10000x128) (x1 : Arr S10000x10000) (x2 : Arr S128x128) (x3 : Arr S128)
    (x4 x5 : Arr S128x64) (x6 : Arr S64) (x7 x8 : Arr S64x128) (x9 : Arr S128) (x10 x11 : Arr S128x40) (x12 : Arr S40) :
    val_main_v35 (F := Ideal) x0 x1 x2 x3 x4 x5 x6 x7 x8 x9 x10 x11 x12
      = direct (N := 10000) x0 x1 x2 x3 x4 x5 x6 x7 x8 x9 x10 x11 x12 := by
  rw [out_eq, h2_eq, h1_eq, h0_eq]
  rfl

theorem res_eq_direct (m : (ℓ : Loc nD τ sig) → Buf (Elt Ideal) ℓ) (c : Dev nD) :
    Cert.ReferenceIdeal.Value.res_out0 (F := Ideal) m c
      = Cert.Spec.direct (N := 10000) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (Read.val_main_v35_eq (F := Ideal) m c).trans (val_eq_direct _ _ _ _ _ _ _ _ _ _ _ _ _)

end Cert.ReferenceIdeal.RefValue

end
-- ==== Proof.LibAllReal.lean ====
import Idealize.ShloMosaic.PureOps.Ideal
import Idealize.ShloMosaic.PureOps.Ideal.Laws
import Idealize.ShloMosaic.PureOps.ShapeOps
import Idealize.ShloMosaic.PureOps.Contract
import Mathlib.Data.EReal.Basic
import Mathlib.Data.EReal.Operations
import Mathlib.Data.EReal.Inv
import Mathlib.Algebra.BigOperators.Group.Finset.Defs

noncomputable section

namespace Cert.LibAllReal

open Idealize.ShloMosaic

-- Every entry is a real number: neither infinity occurs.
def AllReal {S : Shape} (v : S.Idx → EReal) : Prop := ∀ y, ∃ r : ℝ, v y = (r : EReal)

end Cert.LibAllReal

end
-- ==== Proof.Algebra1.lean ====
import proofs.«103105_g78589311582291_cont_9to1_m_296_15_alg».proof.Proof.Spec
import proofs.«103105_g78589311582291_cont_9to1_m_296_15_alg».proof.Proof.LibAllReal
import Mathlib.Data.EReal.Basic
import Mathlib.Data.EReal.Operations
import Mathlib.Algebra.BigOperators.Ring.Finset
import Mathlib.Tactic.NormNum

noncomputable section

namespace Cert.Spec

open Idealize.ShloMosaic Idealize.ShloMosaic.ValueIdx Cert.LibAllReal
open scoped BigOperators

theorem zero_eq : zero = 0 := by
  unfold zero; simp [Ideal.ofBits, Ideal.ieee]

theorem one_eq : one = 1 := by
  unfold one; simp [Ideal.ofBits, Ideal.ieee, -EReal.coe_mul]; norm_num

theorem floor_pos : ∃ fl : ℝ, 0 < fl ∧ floor = (fl : EReal) := by
  unfold floor; simp [Ideal.ofBits, Ideal.ieee, -EReal.coe_mul]

def fl : ℝ := Classical.choose floor_pos
theorem fl_pos : 0 < fl := (Classical.choose_spec floor_pos).1
theorem floor_eq : floor = (fl : EReal) := (Classical.choose_spec floor_pos).2

abbrev RMat (n m : ℕ) : Type := Fin n → Fin m → ℝ

-- A real matrix read as a matrix of extended reals; every operation of the specification commutes with this reading.
def emb {n m : ℕ} (a : RMat n m) : Mat n m := fun j => ((a (j 0) (j 1) : ℝ) : EReal)

def embV {m : ℕ} (b : Fin m → ℝ) : Row m := fun j => ((b (j 0) : ℝ) : EReal)

def embR {m : ℕ} (b : Fin m → ℝ) : Mat 1 m := emb fun _ c => b c

def embC {n : ℕ} (s : Fin n → ℝ) : Mat n 1 := emb fun r _ => s r

theorem emb_ix2 {n m : ℕ} (a : RMat n m) (r : Fin n) (c : Fin m) : emb a (ix2 r c) = ((a r c : ℝ) : EReal) := rfl

theorem exists_emb {n m : ℕ} {x : Mat n m} (hx : AllReal x) : ∃ a : RMat n m, x = emb a := by
  have hx' : ∀ y, ∃ r : ℝ, x y = (r : EReal) := hx
  choose f hf using hx'
  refine ⟨fun r c => f (ix2 r c), funext fun j => ?_⟩
  rw [hf j]
  exact congrArg (fun i => ((f i : ℝ) : EReal)) (eq_ix2 j)

theorem exists_embV {m : ℕ} {b : Row m} (hb : AllReal b) : ∃ b' : Fin m → ℝ, b = embV b' := by
  have hb' : ∀ y, ∃ r : ℝ, b y = (r : EReal) := hb
  choose f hf using hb'
  refine ⟨fun c => f (ix1 c), funext fun j => ?_⟩
  rw [hf j]
  exact congrArg (fun i => ((f i : ℝ) : EReal)) (eq_ix1 j)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

section Real
variable {n k m : ℕ}

def rmm (a : RMat n k) (b : RMat k m) : RMat n m := fun r c => ∑ l : Fin k, a r l * b l c

def radd (a b : RMat n m) : RMat n m := fun r c => a r c + b r c

def raddRow (a : RMat n m) (b : Fin m → ℝ) : RMat n m := fun r c => a r c + b c

def rrelu (a : RMat n m) : RMat n m := fun r c => max (a r c) 0

def rscale (a : RMat n m) (s : Fin n → ℝ) : RMat n m := fun r c => a r c * s r

def rcols (m' : ℕ) (h : m' ≤ m) (a : RMat n m) : RMat n m' := fun r c => a r (Fin.castLE h c)

def rpad (m' : ℕ) (a : RMat k m) : RMat k m' := fun r c => if h : c.val < m then a r ⟨c.val, h⟩ else 0

def runit (c : ℕ) : Fin m → ℝ := fun c' => if c'.val = c then 1 else 0

end Real

section Coe
variable {n k m : ℕ}

theorem mm_emb (a : RMat n k) (b : RMat k m) : mm (emb a) (emb b) = emb (rmm a b) := by
  funext j
  show ∑ l : Fin k, ((a (j 0) l : ℝ) : EReal) * ((b l (j 1) : ℝ) : EReal) = ((∑ l : Fin k, a (j 0) l * b l (j 1) : ℝ) : EReal)
  rw [coe_sum]
  exact Finset.sum_congr rfl fun l _ => (EReal.coe_mul _ _).symm

theorem add_emb (a b : RMat n m) : add (emb a) (emb b) = emb (radd a b) := by
  funext j
  exact (EReal.coe_add _ _).symm

theorem addRow_emb (a : RMat n m) (b : Fin m → ℝ) : addRow (emb a) (embR b) = emb (raddRow a b) := by
  funext j
  exact (EReal.coe_add _ _).symm

theorem addVec_emb (a : RMat n m) (b : Fin m → ℝ) : addVec (emb a) (embV b) = emb (raddRow a b) := by
  funext j
  exact (EReal.coe_add _ _).symm

theorem rowOf_embV (b : Fin m → ℝ) : rowOf (embV b) = embR b := rfl

theorem relu_emb (a : RMat n m) : relu (emb a) = emb (rrelu a) := by
  funext j
  show max ((a (j 0) (j 1) : ℝ) : EReal) zero = ((max (a (j 0) (j 1)) 0 : ℝ) : EReal)
  rw [zero_eq, coe_max, EReal.coe_zero]

theorem scaleRows_emb (a : RMat n m) (s : Fin n → ℝ) : scaleRows (emb a) (embC s) = emb (rscale a s) := by
  funext j
  exact (EReal.coe_mul _ _).symm

theorem divRows_emb (a : RMat n m) (d : Fin n → ℝ) (hd : ∀ r, d r ≠ 0) :
    divRows (emb a) (embC d) = emb (rscale a fun r => 1 / d r) := by
  funext j
  show Ideal.div ((a (j 0) (j 1) : ℝ) : EReal) ((d (j 0) : ℝ) : EReal) = ((a (j 0) (j 1) * (1 / d (j 0)) : ℝ) : EReal)
  exact (Ideal.div_coe (hd _) _).trans (EReal.coe_mul _ _).symm

theorem cols_emb (m' : ℕ) (h : m' ≤ m) (a : RMat n m) : cols m' h (emb a) = emb (rcols m' h a) := rfl

theorem col_emb (c : Fin m) (a : RMat n m) : col c (emb a) = embC fun r => a r c := rfl

theorem padCols_emb (m' : ℕ) (a : RMat k m) : padCols m' (emb a) = emb (rpad m' a) := by
  funext j
  show (if h : (j 1).val < m then ((a (j 0) ⟨(j 1).val, h⟩ : ℝ) : EReal) else zero)
    = (((if h : (j 1).val < m then a (j 0) ⟨(j 1).val, h⟩ else 0) : ℝ) : EReal)
  split
  · rfl
  · rw [zero_eq, EReal.coe_zero]

theorem unitRow_emb (c : ℕ) : unitRow (m := m) c = embR (runit c) := by
  funext j
  show (if (j 1).val = c then one else zero) = (((if (j 1).val = c then 1 else 0) : ℝ) : EReal)
  split
  · rw [one_eq, EReal.coe_one]
  · rw [zero_eq, EReal.coe_zero]

theorem recipFloored_emb (d : Fin n → ℝ) : recipFloored (embC d) = embC fun r => 1 / max (d r) fl := by
  funext j
  show Ideal.div one (max ((d (j 0) : ℝ) : EReal) floor) = ((1 / max (d (j 0)) fl : ℝ) : EReal)
  have hne : max (d (j 0)) fl ≠ 0 := (lt_of_lt_of_le fl_pos (le_max_right _ _)).ne'
  rw [one_eq, floor_eq, ← coe_max, Ideal.div_coe hne, one_mul]

theorem d_deg_emb (adj : RMat n n) : d_deg (emb adj) = embC fun r => max (∑ l : Fin n, adj r l) fl := by
  funext j
  show max (zero + ∑ l : Fin n, ((adj (j 0) l : ℝ) : EReal)) floor = ((max (∑ l : Fin n, adj (j 0) l) fl : ℝ) : EReal)
  rw [zero_eq, zero_add, floor_eq, ← coe_sum, ← coe_max]

end Coe

end Cert.Spec

end
-- ==== Proof.Algebra2.lean ====
import proofs.«103105_g78589311582291_cont_9to1_m_296_15_alg».proof.Proof.Algebra1
import Mathlib.Algebra.BigOperators.Ring.Finset
import Mathlib.Algebra.BigOperators.Group.Finset.Sigma
import Mathlib.Tactic.Ring

noncomputable section

namespace Cert.Spec

open scoped BigOperators

section Identities
variable {n p k m : ℕ}

theorem rmm_assoc (a : RMat n p) (h : RMat p k) (w : RMat k m) : rmm a (rmm h w) = rmm (rmm a h) w := by
  funext r c
  show ∑ l : Fin p, a r l * ∑ q : Fin k, h l q * w q c = ∑ q : Fin k, (∑ l : Fin p, a r l * h l q) * w q c
  simp_rw [Finset.mul_sum, Finset.sum_mul]
  rw [Finset.sum_comm]
  exact Finset.sum_congr rfl fun q _ => Finset.sum_congr rfl fun l _ => (mul_assoc _ _ _).symm

theorem rscale_rmm (a : RMat n k) (w : RMat k m) (s : Fin n → ℝ) : rscale (rmm a w) s = rmm (rscale a s) w := by
  funext r c
  show (∑ l : Fin k, a r l * w l c) * s r = ∑ l : Fin k, a r l * s r * w l c
  rw [Finset.sum_mul]
  exact Finset.sum_congr rfl fun l _ => by ring

-- Padding the weight with zero columns and adding a row that vanishes there does not change the first columns of the product.
theorem rcols_rmm_pad (m' : ℕ) (hm : m ≤ m') (a : RMat n k) (w : RMat k m) (e : Fin m' → ℝ)
    (he : ∀ c : Fin m, e (Fin.castLE hm c) = 0) :
    rcols m hm (raddRow (rmm a (rpad m' w)) e) = rmm a w := by
  funext r c
  show ∑ l : Fin k, a r l * (if h : (Fin.castLE hm c).val < m then w l ⟨(Fin.castLE hm c).val, h⟩ else 0) + e (Fin.castLE hm c)
    = ∑ l : Fin k, a r l * w l c
  rw [he c, add_zero]
  refine Finset.sum_congr rfl fun l _ => ?_
  rw [dif_pos (show (Fin.castLE hm c).val < m from c.isLt)]
  rfl

theorem rmm_pad_unit (m' : ℕ) (a : RMat n k) (w : RMat k m) (e : Fin m' → ℝ) (c : Fin m') (hc : m ≤ c.val) (he : e c = 1)
    (r : Fin n) : raddRow (rmm a (rpad m' w)) e r c = 1 := by
  show ∑ l : Fin k, a r l * (if h : c.val < m then w l ⟨c.val, h⟩ else 0) + e c = 1
  rw [he]
  have : ∀ l : Fin k, a r l * (if h : c.val < m then w l ⟨c.val, h⟩ else 0) = 0 := fun l => by
    rw [dif_neg (not_lt.2 hc), mul_zero]
  rw [Finset.sum_congr rfl fun l _ => this l, Finset.sum_const_zero, zero_add]

-- Against a column of ones a product's entry is the row sum.
theorem rmm_col_one (a : RMat n k) (g : RMat k m) (c : Fin m) (hg : ∀ l, g l c = 1) (r : Fin n) :
    rmm a g r c = ∑ l : Fin k, a r l := by
  show ∑ l : Fin k, a r l * g l c = ∑ l : Fin k, a r l
  exact Finset.sum_congr rfl fun l _ => by rw [hg l, mul_one]

end Identities

end Cert.Spec

end
-- ==== Proof.Algebra3.lean ====
import proofs.«103105_g78589311582291_cont_9to1_m_296_15_alg».proof.Proof.Algebra1
import proofs.«103105_g78589311582291_cont_9to1_m_296_15_alg».proof.Proof.Algebra2

noncomputable section

namespace Cert.Spec

open Idealize.ShloMosaic Idealize.ShloMosaic.ValueIdx
open scoped BigOperators

section Stages
variable {N : ℕ}

def rdeg (adj : RMat N N) : Fin N → ℝ := fun r => max (∑ l : Fin N, adj r l) fl

def rinv (adj : RMat N N) : Fin N → ℝ := fun r => 1 / rdeg adj r

def rsage {a b : ℕ} (adj : RMat N N) (h : RMat N a) (Wl Wr : RMat a b) (bias : Fin b → ℝ) : RMat N b :=
  raddRow (radd (rmm h Wl) (rmm (rscale (rmm adj h) (rinv adj)) Wr)) bias

def rgp (h0 : RMat N 128) (Wr1 : RMat 128 64) : RMat N 128 := raddRow (rmm h0 (rpad 128 Wr1)) (runit 64)

theorem rdeg_ne_zero (adj : RMat N N) (r : Fin N) : rdeg adj r ≠ 0 :=
  (lt_of_lt_of_le fl_pos (le_max_right _ _)).ne'

theorem d_deg_emb' (adj : RMat N N) : d_deg (emb adj) = embC (rdeg adj) := d_deg_emb adj

theorem d_sage_emb {a b : ℕ} (adj : RMat N N) (h : RMat N a) (Wl Wr : RMat a b) (bias : Fin b → ℝ) :
    d_sage (emb adj) (embC (rdeg adj)) (emb h) (emb Wl) (emb Wr) (embV bias) = emb (rsage adj h Wl Wr bias) := by
  unfold d_sage rsage
  rw [mm_emb, mm_emb, divRows_emb _ _ (rdeg_ne_zero adj), mm_emb, add_emb, addVec_emb]
  rfl

theorem f_h0_emb (x : RMat N 128) (Wm : RMat 128 128) (bm : Fin 128 → ℝ) :
    f_h0 (emb x) (emb Wm) (rowOf (embV bm)) = emb (raddRow (rmm x Wm) bm) := by
  unfold f_h0
  rw [rowOf_embV, mm_emb, addRow_emb]

theorem f_gp_emb (h0 : RMat N 128) (Wr1 : RMat 128 64) :
    f_gp (emb h0) (padCols 128 (emb Wr1)) (unitRow 64) = emb (rgp h0 Wr1) := by
  unfold f_gp rgp
  rw [padCols_emb, unitRow_emb, mm_emb, addRow_emb]

theorem rgp_col64 (h0 : RMat N 128) (Wr1 : RMat 128 64) (l : Fin N) : rgp h0 Wr1 l (⟨64, by decide⟩ : Fin 128) = 1 :=
  rmm_pad_unit 128 h0 Wr1 (runit 64) ⟨64, by decide⟩ (le_refl 64) (if_pos rfl) l

theorem rgp_cols (h0 : RMat N 128) (Wr1 : RMat 128 64) : rcols 64 (by decide) (rgp h0 Wr1) = rmm h0 Wr1 :=
  rcols_rmm_pad 128 (by decide) h0 Wr1 (runit 64) fun c => if_neg (by
    show (Fin.castLE _ c).val ≠ 64
    exact c.isLt.ne)

-- Column 64 of the packed array is all ones, so column 64 of its aggregate is the degree.
theorem f_invd_emb (adj : RMat N N) (h0 : RMat N 128) (Wr1 : RMat 128 64) :
    f_invd (emb adj) (emb (rgp h0 Wr1)) = embC (rinv adj) := by
  unfold f_invd
  rw [mm_emb, col_emb, recipFloored_emb]
  refine congrArg embC (funext fun r => ?_)
  show 1 / max (rmm adj (rgp h0 Wr1) r ⟨64, by decide⟩) fl = 1 / max (∑ l : Fin N, adj r l) fl
  rw [rmm_col_one adj (rgp h0 Wr1) ⟨64, by decide⟩ (rgp_col64 h0 Wr1) r]

theorem f_h1_emb (adj : RMat N N) (h0 : RMat N 128) (Wl1 Wr1 : RMat 128 64) (b1 : Fin 64 → ℝ) :
    f_h1 (emb adj) (emb (rgp h0 Wr1)) (emb h0) (emb Wl1) (rowOf (embV b1)) = emb (rrelu (rsage adj h0 Wl1 Wr1 b1)) := by
  unfold f_h1
  rw [f_invd_emb, mm_emb, mm_emb, cols_emb, scaleRows_emb, add_emb, rowOf_embV, addRow_emb, relu_emb]
  have key : rcols 64 (by decide) (rmm adj (rgp h0 Wr1)) = rmm (rmm adj h0) Wr1 := by
    rw [← rmm_assoc, ← rgp_cols h0 Wr1]
    rfl
  rw [key, rscale_rmm]
  rfl

theorem f_h2_emb (adj : RMat N N) (h1 : RMat N 64) (Wl2 Wr2 : RMat 64 128) (b2 : Fin 128 → ℝ) :
    f_h2 (emb adj) (emb h1) (emb h1) (embC (rinv adj)) (emb Wl2) (emb Wr2) (rowOf (embV b2))
      = emb (rrelu (rsage adj h1 Wl2 Wr2 b2)) := by
  unfold f_h2
  rw [mm_emb, mm_emb, scaleRows_emb, mm_emb, add_emb, rowOf_embV, addRow_emb, relu_emb]
  rfl

theorem f_out_emb (adj : RMat N N) (h2 : RMat N 128) (Wl3 Wr3 : RMat 128 40) (b3 : Fin 40 → ℝ) :
    f_out (emb adj) (f_g3 (emb h2) (emb Wr3)) (emb h2) (embC (rinv adj)) (emb Wl3) (rowOf (embV b3))
      = emb (rsage adj h2 Wl3 Wr3 b3) := by
  unfold f_out f_g3
  rw [mm_emb, mm_emb, mm_emb, scaleRows_emb, add_emb, rowOf_embV, addRow_emb, rmm_assoc, rscale_rmm]
  rfl

end Stages

end Cert.Spec

end
-- ==== Proof.Algebra.lean ====
import proofs.«103105_g78589311582291_cont_9to1_m_296_15_alg».proof.Proof.Algebra1
import proofs.«103105_g78589311582291_cont_9to1_m_296_15_alg».proof.Proof.Algebra3

noncomputable section

namespace Cert.Spec

open Idealize.ShloMosaic Cert.LibAllReal

-- On real entries both computations are the same real matrix: associativity of the matrix product moves the weight inside the aggregation, and a quotient by the positive floored degree is a product with its reciprocal.
theorem fused_eq_direct {N : ℕ} (x : Mat N 128) (adj : Mat N N) (Wm : Mat 128 128) (bm : Row 128) (Wl1 Wr1 : Mat 128 64) (b1 : Row 64)
    (Wl2 Wr2 : Mat 64 128) (b2 : Row 128) (Wl3 Wr3 : Mat 128 40) (b3 : Row 40)
    (hx : AllReal x) (hadj : AllReal adj) (hWm : AllReal Wm) (hbm : AllReal bm) (hWl1 : AllReal Wl1) (hWr1 : AllReal Wr1) (hb1 : AllReal b1)
    (hWl2 : AllReal Wl2) (hWr2 : AllReal Wr2) (hb2 : AllReal b2) (hWl3 : AllReal Wl3) (hWr3 : AllReal Wr3) (hb3 : AllReal b3) :
    fused x adj Wm bm Wl1 Wr1 b1 Wl2 Wr2 b2 Wl3 Wr3 b3 = direct x adj Wm bm Wl1 Wr1 b1 Wl2 Wr2 b2 Wl3 Wr3 b3 := by
  obtain ⟨x, rfl⟩ := exists_emb hx
  obtain ⟨adj, rfl⟩ := exists_emb hadj
  obtain ⟨Wm, rfl⟩ := exists_emb hWm
  obtain ⟨bm, rfl⟩ := exists_embV hbm
  obtain ⟨Wl1, rfl⟩ := exists_emb hWl1
  obtain ⟨Wr1, rfl⟩ := exists_emb hWr1
  obtain ⟨b1, rfl⟩ := exists_embV hb1
  obtain ⟨Wl2, rfl⟩ := exists_emb hWl2
  obtain ⟨Wr2, rfl⟩ := exists_emb hWr2
  obtain ⟨b2, rfl⟩ := exists_embV hb2
  obtain ⟨Wl3, rfl⟩ := exists_emb hWl3
  obtain ⟨Wr3, rfl⟩ := exists_emb hWr3
  obtain ⟨b3, rfl⟩ := exists_embV hb3
  have hf : fused (emb x) (emb adj) (emb Wm) (embV bm) (emb Wl1) (emb Wr1) (embV b1) (emb Wl2) (emb Wr2) (embV b2)
      (emb Wl3) (emb Wr3) (embV b3)
      = emb (rsage adj (rrelu (rsage adj (rrelu (rsage adj (raddRow (rmm x Wm) bm) Wl1 Wr1 b1)) Wl2 Wr2 b2)) Wl3 Wr3 b3) := by
    unfold fused
    simp only [f_h0_emb, f_gp_emb, f_invd_emb, f_h1_emb, f_h2_emb, f_out_emb]
  have hd : direct (emb x) (emb adj) (emb Wm) (embV bm) (emb Wl1) (emb Wr1) (embV b1) (emb Wl2) (emb Wr2) (embV b2)
      (emb Wl3) (emb Wr3) (embV b3)
      = emb (rsage adj (rrelu (rsage adj (rrelu (rsage adj (raddRow (rmm x Wm) bm) Wl1 Wr1 b1)) Wl2 Wr2 b2)) Wl3 Wr3 b3) := by
    unfold direct
    simp only [d_deg_emb', mm_emb, addVec_emb, d_sage_emb, relu_emb]
  rw [hf, hd]

end Cert.Spec

end
-- ==== Proof.Finite.lean ====
import proofs.«103105_g78589311582291_cont_9to1_m_296_15_alg».proof.Pre_finite_inputs
import proofs.«103105_g78589311582291_cont_9to1_m_296_15_alg».proof.Proof.LibAllReal
import Idealize.ShloMosaic.Lib.ReduceAll
import Idealize.ShloMosaic.Lib.ValueIdx
import Idealize.ShloMosaic.PureOps.Ideal

noncomputable section

namespace Cert.Hand.Finite

open Idealize.ShloMosaic Cert.LibAllReal

theorem ofBits_inf : Ideal.ofBits .f32 0x7F800000#32 = (⊤ : EReal) := by
  simp [Ideal.ofBits, Ideal.ieee]

-- An extended real whose absolute value is below +infinity is a real number.
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

theorem allReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf x)
          (broadcastInDim S ![] hb (constant (F := Ideal) Cert.Pre_finite_inputs.S_ .f32 0x7F800000#32)))
        (constantI Cert.Pre_finite_inputs.S_ 1 1#1) hr hu ValueIdx.ix0 = 1#1) : AllReal x := fun y =>
  real_of_abs_lt_top (x y) (Host.reduce_andi_all _ _ hr hu ValueIdx.ix0 e y)

-- The precondition is a conjunction of thirteen all-entries-finite tests, one per argument.
theorem allReal_of_pre
    (a0 : FVec Ideal Cert.Pre_finite_inputs.S10000x128 .f32) (a1 : FVec Ideal Cert.Pre_finite_inputs.S10000x10000 .f32) (a2 : FVec Ideal Cert.Pre_finite_inputs.S128x128 .f32)
    (a3 : FVec Ideal Cert.Pre_finite_inputs.S128 .f32) (a4 : FVec Ideal Cert.Pre_finite_inputs.S128x64 .f32) (a5 : FVec Ideal Cert.Pre_finite_inputs.S128x64 .f32)
    (a6 : FVec Ideal Cert.Pre_finite_inputs.S64 .f32) (a7 : FVec Ideal Cert.Pre_finite_inputs.S64x128 .f32) (a8 : FVec Ideal Cert.Pre_finite_inputs.S64x128 .f32)
    (a9 : FVec Ideal Cert.Pre_finite_inputs.S128 .f32) (a10 : FVec Ideal Cert.Pre_finite_inputs.S128x40 .f32) (a11 : FVec Ideal Cert.Pre_finite_inputs.S128x40 .f32)
    (a12 : FVec Ideal Cert.Pre_finite_inputs.S40 .f32)
    [hF : Cert.Pre_finite_inputs.Facts]
    (h : Cert.Pre_finite_inputs.fn (F := Ideal) a0 a1 a2 a3 a4 a5 a6 a7 a8 a9 a10 a11 a12 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨allReal_of_all a0 _ _ _ e0, allReal_of_all a1 _ _ _ e1, allReal_of_all a2 _ _ _ e2,
    allReal_of_all a3 _ _ _ e3, allReal_of_all a4 _ _ _ e4, allReal_of_all a5 _ _ _ e5,
    allReal_of_all a6 _ _ _ e6, allReal_of_all a7 _ _ _ e7, allReal_of_all a8 _ _ _ e8,
    allReal_of_all a9 _ _ _ e9, allReal_of_all a10 _ _ _ e10, allReal_of_all a11 _ _ _ e11,
    allReal_of_all a12 _ _ _ e12⟩

end Cert.Hand.Finite

end
-- ==== Proof.lean ====
import proofs.«103105_g78589311582291_cont_9to1_m_296_15_alg».proof.Defs
import proofs.«103105_g78589311582291_cont_9to1_m_296_15_alg».proof.Proof.Gen.Kernel
import proofs.«103105_g78589311582291_cont_9to1_m_296_15_alg».proof.Proof.Gen.KernelIdeal
import proofs.«103105_g78589311582291_cont_9to1_m_296_15_alg».proof.Proof.Gen.ReferenceIdeal
import proofs.«103105_g78589311582291_cont_9to1_m_296_15_alg».proof.Proof.Gen.Pre_finite_inputs
import proofs.«103105_g78589311582291_cont_9to1_m_296_15_alg».proof.Proof.KB.Run
import proofs.«103105_g78589311582291_cont_9to1_m_296_15_alg».proof.Proof.KI.Run
import proofs.«103105_g78589311582291_cont_9to1_m_296_15_alg».proof.Proof.KI.Compose
import proofs.«103105_g78589311582291_cont_9to1_m_296_15_alg».proof.Proof.RefValue
import proofs.«103105_g78589311582291_cont_9to1_m_296_15_alg».proof.Proof.Algebra
import proofs.«103105_g78589311582291_cont_9to1_m_296_15_alg».proof.Proof.Finite
import Idealize.ShloMosaic.Adequacy
import Idealize.ShloMosaic.Init

noncomputable section

namespace Cert.Proof

open Idealize.ShloMosaic Idealize.ShloMosaic.TcCoe Idealize.SL.Sem

-- Each kernel program's frame is its run with the result dropped; the run is generic in the number instance.
theorem frame_p : Cert.frame_Kernel := fun m ρ _ =>
  (θ_run Cert.Kernel.defs _ _).mono (fun _ h c => (h c).2) (Cert.Kernel.Hand.run_main (F := Bits) m ρ)

theorem frame_pi : Cert.frame_KernelIdeal := fun m ρ _ =>
  (θ_run Cert.KernelIdeal.defs _ _).mono (fun _ h c => (h c).2) (Cert.KernelIdeal.Hand.run_main (F := Ideal) m ρ)

-- The reference's frame is its run with the result dropped.
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both programs end at one array: the kernel's result is the fused computation, the reference's the direct one, and on real inputs the two agree.
theorem algebraic : Cert.algebraic_KernelIdeal_ReferenceIdeal := by
  intro m ρ m' ρ' hpre hagree
  refine ⟨fun c => Cert.KernelIdeal.Hand.fusedOf m c, ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    obtain ⟨r0, r1, r2, r3, r4, r5, r6, r7, r8, r9, r10, r11, r12⟩ := Cert.Hand.Finite.allReal_of_pre _ _ _ _ _ _ _ _ _ _ _ _ _ (hpre c)
    refine (Cert.ReferenceIdeal.RefValue.res_eq_direct m' c).trans ?_
    rw [e0, e1, e2, e3, e4, e5, e6, e7, e8, e9, e10, e11, e12]
    exact (Cert.Spec.fused_eq_direct _ _ _ _ _ _ _ _ _ _ _ _ _ r0 r1 r2 r3 r4 r5 r6 r7 r8 r9 r10 r11 r12).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
